-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S4096 : Shape := ⟨1, ![4096]⟩
abbrev S8192x4096 : Shape := ⟨2, ![8192, 4096]⟩
abbrev S128x64 : Shape := ⟨2, ![128, 64]⟩
abbrev S64x1 : Shape := ⟨2, ![64, 1]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S4096 .f32) (main_arg5 : FVec F S128x64 .f32) (main_arg6 : FVec F S64x1 .f32) (main_arg7 : FVec F S64 .f32) (main_arg8 : FVec F S64 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S8192 .f32) (main_arg2 : FVec F S4096 .f32) (main_arg3 : FVec F S8192x4096 .f32) (main_arg4 : FVec F S4096 .f32) (main_arg5 : FVec F S128x64 .f32) (main_arg6 : FVec F S64x1 .f32) (main_arg7 : FVec F S64 .f32) (main_arg8 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S8192 : Shape := ⟨1, ![8192]⟩
abbrev S4096 : Shape := ⟨1, ![4096]⟩
abbrev S8192x4096 : Shape := ⟨2, ![8192, 4096]⟩
abbrev S128x64 : Shape := ⟨2, ![128, 64]⟩
abbrev S64x1 : Shape := ⟨2, ![64, 1]⟩
abbrev S64 : Shape := ⟨1, ![64]⟩
abbrev S8192x1 : Shape := ⟨2, ![8192, 1]⟩
abbrev S1x4096 : Shape := ⟨2, ![1, 4096]⟩
abbrev S8192x64 : Shape := ⟨2, ![8192, 64]⟩
abbrev S4096x64 : Shape := ⟨2, ![4096, 64]⟩
abbrev S2048x1024 : Shape := ⟨2, ![2048, 1024]⟩
abbrev S2048x64 : Shape := ⟨2, ![2048, 64]⟩
abbrev S1024x64 : Shape := ⟨2, ![1024, 64]⟩
abbrev S1024x2048 : Shape := ⟨2, ![1024, 2048]⟩
abbrev S2048x1 : Shape := ⟨2, ![2048, 1]⟩
abbrev S1x1024 : Shape := ⟨2, ![1, 1024]⟩
abbrev S_ : Shape := ⟨0, ![]⟩
abbrev S1x64 : Shape := ⟨2, ![1, 64]⟩
abbrev S4096x1 : Shape := ⟨2, ![4096, 1]⟩
abbrev S1024x1 : Shape := ⟨2, ![1024, 1]⟩

abbrev nBuf : Space → Nat
  | .hbm => 84
  | .vmem => 36
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S4096, .f32⟩
  | .hbm, ⟨3, _⟩ => ⟨S8192x4096, .f32⟩
  | .hbm, ⟨4, _⟩ => ⟨S4096, .f32⟩
  | .hbm, ⟨5, _⟩ => ⟨S128x64, .f32⟩
  | .hbm, ⟨6, _⟩ => ⟨S64x1, .f32⟩
  | .hbm, ⟨7, _⟩ => ⟨S64, .f32⟩
  | .hbm, ⟨8, _⟩ => ⟨S64, .f32⟩
  | .hbm, ⟨9, _⟩ => ⟨S8192x1, .f32⟩
  | .hbm, ⟨10, _⟩ => ⟨S4096, .f32⟩
  | .hbm, ⟨11, _⟩ => ⟨S1x4096, .f32⟩
  | .hbm, ⟨12, _⟩ => ⟨S8192x64, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S4096x64, .f32⟩
  | .hbm, ⟨17, _⟩ => ⟨S8192x64, .f32⟩
  | .hbm, ⟨18, _⟩ => ⟨S_, .f32⟩
  | .hbm, ⟨19, _⟩ => ⟨S_, .f32⟩
  | .hbm, ⟨20, _⟩ => ⟨S8192x64, .f32⟩
  | .hbm, ⟨21, _⟩ => ⟨S8192x64, .i1⟩
  | .hbm, ⟨22, _⟩ => ⟨S_, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .i32⟩
  | .hbm, ⟨32, _⟩ => ⟨S_, .f32⟩
  | .hbm, ⟨33, _⟩ => ⟨S64, .f32⟩
  | .hbm, ⟨34, _⟩ => ⟨S1x64, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S1x64, .f32⟩
  | .hbm, ⟨65, _⟩ => ⟨S8192x64, .f32⟩
  | .hbm, ⟨66, _⟩ => ⟨S8192x64, .f32⟩
  | .hbm, ⟨67, _⟩ => ⟨S1x64, .f32⟩
  | .hbm, ⟨68, _⟩ => ⟨S8192x64, .f32⟩
  | .hbm, ⟨69, _⟩ => ⟨S8192x64, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S4096x1, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192, .f32⟩
  | .local _ .vmem, ⟨0, _⟩ => ⟨S2048x1024, .f32⟩
  | .local _ .vmem, ⟨1, _⟩ => ⟨S2048x1024, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S2048x1024, .f32⟩
  | .local _ .vmem, ⟨8, _⟩ => ⟨S2048x1024, .f32⟩
  | .local _ .vmem, ⟨9, _⟩ => ⟨S2048x1, .f32⟩
  | .local _ .vmem, ⟨10, _⟩ => ⟨S2048x1, .f32⟩
  | .local _ .vmem, ⟨11, _⟩ => ⟨S1x1024, .f32⟩
  | .local _ .vmem, ⟨12, _⟩ => ⟨S1x1024, .f32⟩
  | .local _ .vmem, ⟨13, _⟩ => ⟨S1024x64, .f32⟩
  | .local _ .vmem, ⟨14, _⟩ => ⟨S1024x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x1024, .f32⟩
  | .local _ .vmem, ⟨19, _⟩ => ⟨S2048x1024, .f32⟩
  | .local _ .vmem, ⟨20, _⟩ => ⟨S2048x1, .f32⟩
  | .local _ .vmem, ⟨21, _⟩ => ⟨S2048x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S2048x1024, .f32⟩
  | .local _ .vmem, ⟨26, _⟩ => ⟨S2048x1024, .f32⟩
  | .local _ .vmem, ⟨27, _⟩ => ⟨S2048x1, .f32⟩
  | .local _ .vmem, ⟨28, _⟩ => ⟨S2048x1, .f32⟩
  | .local _ .vmem, ⟨29, _⟩ => ⟨S1x1024, .f32⟩
  | .local _ .vmem, ⟨30, _⟩ => ⟨S1x1024, .f32⟩
  | .local _ .vmem, ⟨31, _⟩ => ⟨S1024x1, .f32⟩
  | .local _ .vmem, ⟨32, _⟩ => ⟨S1024x1, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_cst_2 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_cst_3 : Ref sig .tc := ⟨.hbm, 48, rfl⟩
abbrev main_call1_v12 : Ref sig .tc := ⟨.hbm, 49, rfl⟩
abbrev main_call1_cst_4 : Ref sig .tc := ⟨.hbm, 50, rfl⟩
abbrev main_call1_call0_v0 : Ref sig .tc := ⟨.hbm, 51, rfl⟩
abbrev main_call1_call0_v1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_2 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_3 : Ref sig .tc := ⟨.hbm, 77, rfl⟩
abbrev main_v36 : Ref sig .tc := ⟨.hbm, 78, rfl⟩
abbrev main_v37 : Ref sig .tc := ⟨.hbm, 79, rfl⟩
abbrev main_cst_4 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S2048x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x64_0_1 : S8192x1.BroadcastsInDim S8192x64 (![0, 1] : Fin 2 → Fin S8192x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x1024_p1_0_S1024x2048 : S2048x1024.Transposes [1, 0] S1024x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bcast_S_S8192x1 : S_.BroadcastsInDim S8192x1 (![] : Fin 0 → Fin S8192x1.rank)
  shapeCasts_S8192x1_S8192 : S8192x1.ShapeCasts S8192
  dot_S8192x128_S128x64_S8192x64_1_0_0_1_n_n_wf : DotDims.WF S8192x128 S128x64 S8192x64 [1] [0] [0] [1] [] []
  dot_S1024x2048_S2048x64_S1024x64_1_0_0_1_n_n_wf : DotDims.WF S1024x2048 S2048x64 S1024x64 [1] [0] [0] [1] [] []
  dot_S2048x1024_S1024x64_S2048x64_1_0_0_1_n_n_wf : DotDims.WF S2048x1024 S1024x64 S2048x64 [1] [0] [0] [1] [] []
  dot_S8192x64_S64x1_S8192x1_1_0_0_1_n_n_wf : DotDims.WF S8192x64 S64x1 S8192x1 [1] [0] [0] [1] [] []
  dot_S1024x2048_S2048x1_S1024x1_1_0_0_1_n_n_wf : DotDims.WF S1024x2048 S2048x1 S1024x1 [1] [0] [0] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .f32 = 32 ∨ (Rect.block (s := S8192x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S4096x64.size a
  hwx1_3 : ∀ i : grid1.Coords, EltTy.bits .f32 = 32 ∨ (Rect.block (s := S4096x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S8192x64.size a
  hwx1_4 : ∀ i : grid1.Coords, EltTy.bits .f32 = 32 ∨ (Rect.block (s := S8192x64) S2048x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .f32 = 32 ∨ (Rect.block (s := S8192x4096) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x4096.size a
  hwx3_0 : ∀ i : grid3.Coords, EltTy.bits .f32 = 32 ∨ (Rect.block (s := S8192x4096) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S8192x1.size a
  hwx3_1 : ∀ i : grid3.Coords, EltTy.bits .f32 = 32 ∨ (Rect.block (s := S8192x1) S2048x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1.size a ≤ S8192x1.size a
  hwx3_4 : ∀ i : grid3.Coords, EltTy.bits .f32 = 32 ∨ (Rect.block (s := S8192x1) S2048x1.size (cc3_transform_4 i) (hinb3_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_arg3) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg3) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v33) S2048x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192 : Shape := ⟨1, ![8192]⟩
abbrev S4096 : Shape := ⟨1, ![4096]⟩
abbrev S8192x4096 : Shape := ⟨2, ![8192, 4096]⟩
abbrev S128x64 : Shape := ⟨2, ![128, 64]⟩
abbrev S64x1 : Shape := ⟨2, ![64, 1]⟩
abbrev S64 : Shape := ⟨1, ![64]⟩
abbrev S8192x1 : Shape := ⟨2, ![8192, 1]⟩
abbrev S1x4096 : Shape := ⟨2, ![1, 4096]⟩
abbrev S8192x64 : Shape := ⟨2, ![8192, 64]⟩
abbrev S4096x8192 : Shape := ⟨2, ![4096, 8192]⟩
abbrev S4096x64 : Shape := ⟨2, ![4096, 64]⟩
abbrev S_ : Shape := ⟨0, ![]⟩
abbrev S1x64 : Shape := ⟨2, ![1, 64]⟩
abbrev S4096x1 : Shape := ⟨2, ![4096, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S4096, .f32⟩
  | .hbm, ⟨3, _⟩ => ⟨S8192x4096, .f32⟩
  | .hbm, ⟨4, _⟩ => ⟨S4096, .f32⟩
  | .hbm, ⟨5, _⟩ => ⟨S128x64, .f32⟩
  | .hbm, ⟨6, _⟩ => ⟨S64x1, .f32⟩
  | .hbm, ⟨7, _⟩ => ⟨S64, .f32⟩
  | .hbm, ⟨8, _⟩ => ⟨S64, .f32⟩
  | .hbm, ⟨9, _⟩ => ⟨S8192x1, .f32⟩
  | .hbm, ⟨10, _⟩ => ⟨S8192x4096, .f32⟩
  | .hbm, ⟨11, _⟩ => ⟨S8192x4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x64, .f32⟩
  | .hbm, ⟨17, _⟩ => ⟨S4096x8192, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S4096x64, .f32⟩
  | .hbm, ⟨22, _⟩ => ⟨S8192x64, .f32⟩
  | .hbm, ⟨23, _⟩ => ⟨S_, .f32⟩
  | .hbm, ⟨24, _⟩ => ⟨S_, .f32⟩
  | .hbm, ⟨25, _⟩ => ⟨S8192x64, .f32⟩
  | .hbm, ⟨26, _⟩ => ⟨S8192x64, .i1⟩
  | .hbm, ⟨27, _⟩ => ⟨S_, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S1x64, .f32⟩
  | .hbm, ⟨70, _⟩ => ⟨S8192x64, .f32⟩
  | .hbm, ⟨71, _⟩ => ⟨S8192x64, .f32⟩
  | .hbm, ⟨72, _⟩ => ⟨S1x64, .f32⟩
  | .hbm, ⟨73, _⟩ => ⟨S8192x64, .f32⟩
  | .hbm, ⟨74, _⟩ => ⟨S8192x64, .f32⟩
  | .hbm, ⟨75, _⟩ => ⟨S8192x1, .f32⟩
  | .hbm, ⟨76, _⟩ => ⟨S4096x8192, .f32⟩
  | .hbm, ⟨77, _⟩ => ⟨S8192x1, .f32⟩
  | .hbm, ⟨78, _⟩ => ⟨S8192x1, .f32⟩
  | .hbm, ⟨79, _⟩ => ⟨S4096x1, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_3 : Ref sig .tc := ⟨.hbm, 83, rfl⟩
abbrev main_v42 : Ref sig .tc := ⟨.hbm, 84, rfl⟩
abbrev main_v43 : Ref sig .tc := ⟨.hbm, 85, rfl⟩
abbrev main_cst_4 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S8192x4096_S4096x8192_1_0 : S8192x4096.Transposes [1, 0] S4096x8192
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  bcast_S_S8192x1 : S_.BroadcastsInDim S8192x1 (![] : Fin 0 → Fin S8192x1.rank)
  shapeCasts_S8192x1_S8192 : S8192x1.ShapeCasts S8192
  dot_S8192x128_S128x64_S8192x64_1_0_0_1_n_n_wf : DotDims.WF S8192x128 S128x64 S8192x64 [1] [0] [0] [1] [] []
  dot_S4096x8192_S8192x64_S4096x64_1_0_0_1_n_n_wf : DotDims.WF S4096x8192 S8192x64 S4096x64 [1] [0] [0] [1] [] []
  dot_S8192x4096_S4096x64_S8192x64_1_0_0_1_n_n_wf : DotDims.WF S8192x4096 S4096x64 S8192x64 [1] [0] [0] [1] [] []
  dot_S8192x64_S64x1_S8192x1_1_0_0_1_n_n_wf : DotDims.WF S8192x64 S64x1 S8192x1 [1] [0] [0] [1] [] []
  dot_S4096x8192_S8192x1_S4096x1_1_0_0_1_n_n_wf : DotDims.WF S4096x8192 S8192x1 S4096x1 [1] [0] [0] [1] [] []
  dot_S8192x4096_S4096x1_S8192x1_1_0_0_1_n_n_wf : DotDims.WF S8192x4096 S4096x1 S8192x1 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S4096x8192_S8192x1_S4096x1_1_0_0_1_n_n : DotDims S4096x8192 S8192x1 S4096x1 where
  lhsContracting := [1]
  rhsContracting := [0]
  lhsNonContracting := [0]
  rhsNonContracting := [1]
  lhsBatch := []
  rhsBatch := []
  wf := dot_S4096x8192_S8192x1_S4096x1_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf

class Facts : Prop extends Facts₀ where

variable [Facts]
-- ==== Proof.K.Base.lean ====
import proofs.«108704_j53352083751414_1_alg».proof.Proof.Gen.Kernel.Launch
import proofs.«108704_j53352083751414_1_alg».proof.Proof.Gen.Kernel.Points
import proofs.«108704_j53352083751414_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents a region is entered from: every buffer of a core, by reference. -/
abbrev EntryVal (F : FTy → Type) : Type := (c : Dev nD) → (b : Ref sig .tc) → Buf (Elt F) ((c : Thread nD τ).loc b)

end Cert.Kernel.Hand

end
-- ==== Proof.K.R0Run.lean ====
import proofs.«108704_j53352083751414_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1

/-- The accumulator is reset at the first of every four points of the row-major walk: decided over the grid. -/
theorem hcond0 : ∀ t : Fin cfg0.N, cond0 (grid0.coords t) ↔ t.val % 4 = 0 :=
  (by decide +kernel : ∀ t : Fin grid0.N, cond0 (grid0.coords t) ↔ t.val % 4 = 0)

theorem zeroOff0 : (![0, 0] : Fin 2 → Nat) = fun _ => 0 := by funext a; fin_cases a <;> rfl

variable (c : Dev nD) (i : grid0.Coords)
  (arg2 : Memref sig .tc .vmem S2048x1024 .f32) (harg2 : arg2.IsWhole) (arg3 : Memref sig .tc .vmem S2048x64 .f32) (harg3 : arg3.IsWhole)
  (arg4 : Memref sig .tc .vmem S1024x64 .f32) (harg4 : arg4.IsWhole) (arg5 : Memref sig .tc .vmem S1024x64 .f32) (harg5 : arg5.IsWhole)
  (x0 : Vec F S2048x1024 .f32) (x1 : Vec F S2048x64 .f32)

/-- What the body leaves when its accumulator started the point at `a`: the inputs untouched, the accumulator at the
    block product added to `a`, the output's buffer a copy of it. -/
abbrev left0 (a : Vec F S1024x64 .f32) : sProp 𝕄 :=
  iprop(owns (c : Thread nD τ) arg2 fullShare x0 ∗ owns (c : Thread nD τ) arg3 fullShare x1
    ∗ owns (c : Thread nD τ) arg4 fullShare (k0_pay2 x0 x1 a) ∗ owns (c : Thread nD τ) arg5 fullShare (k0_pay2 x0 x1 a))

/-- Where the accumulator is reset it starts the point at the zero block, whatever it held. -/
theorem runA0 (hc : cond0 i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (left0 c arg2 arg3 arg4 arg5 x0 x1 k0_pay1 -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold left0 owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x64.size (by sl_kernel_rfl))).trans ?_
    sl_unfold_words
    rw [View.canon_unit_zero (S := S1024x64) zeroOff0, View.readCov_cons_toLoadRect, View.readCov_cons_toLoadRect]
    simp only [View.readAt_eq_ld, harg2.read_unread, harg3.read_unread, harg5.read_unread, View.ld_unit_zero (S := S2048x1024) zeroOff0, View.ld_unit_zero (S := S2048x64) zeroOff0, View.ld_unit_zero (S := S1024x64) zeroOff0]
  iexists _; isplitr; swap; · iexact HS0
  ipureintro
  refine (View.read_writes_eq_canon _ _ _ (View.cover_of_tiledL _ S1024x64.size (by sl_kernel_rfl))).trans ?_
  sl_unfold_words
  rw [View.canon_cons_unit_zero (S := S1024x64) zeroOff0, View.readCov_cons_toLoadRect]
  simp only [View.readAt_eq_ld, harg2.read_unread, harg3.read_unread, harg5.read_unread, View.ld_unit_zero (S := S2048x1024) zeroOff0, View.ld_unit_zero (S := S2048x64) zeroOff0, View.ld_unit_zero (S := S1024x64) zeroOff0]

/-- Elsewhere it goes on from what it holds. -/
theorem runB0 (hc : ¬cond0 i) (xs0 : Vec F S1024x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs0
        ∗ (left0 c arg2 arg3 arg4 arg5 x0 x1 xs0 -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold left0 owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x64.size (by sl_kernel_rfl))).trans ?_
    sl_unfold_words
    rw [View.canon_unit_zero (S := S1024x64) zeroOff0, View.readCov_cons_toLoadRect]
    simp only [View.readAt_eq_ld, harg2.read_unread, harg3.read_unread, harg5.read_unread, View.ld_unit_zero (S := S2048x1024) zeroOff0, View.ld_unit_zero (S := S2048x64) zeroOff0, View.ld_unit_zero (S := S1024x64) zeroOff0]
  iexists _; isplitr; swap; · iexact HS0
  ipureintro
  refine (View.read_writes_eq_canon _ _ _ (View.cover_of_tiledL _ S1024x64.size (by sl_kernel_rfl))).trans ?_
  sl_unfold_words
  rw [View.canon_unit_zero (S := S1024x64) zeroOff0]
  simp only [View.readAt_eq_ld, harg2.read_unread, harg3.read_unread, harg5.read_unread, View.ld_unit_zero (S := S2048x1024) zeroOff0, View.ld_unit_zero (S := S2048x64) zeroOff0, View.ld_unit_zero (S := S1024x64) zeroOff0]

end Cert.Kernel.Hand

end
-- ==== Proof.K.R0Dat.lean ====
import proofs.«108704_j53352083751414_1_alg».proof.Proof.K.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk0 (V : EntryVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)

/-- The accumulator after the body at position `n`: the point's block product added to the zero block at the first of
    every four positions, and to what position `n - 1` left at the others. -/
def accAt0 (V : EntryVal F) (c : Dev nD) : (n : ℕ) → n < cfg0.N → Vec F S1024x64 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 4 = 0 then k0_pay1 else accAt0 V c n (Nat.lt_of_succ_lt hn))

theorem accAt0_reset (V : EntryVal F) (c : Dev nD) (t : Fin cfg0.N) (h0 : t.val % 4 = 0) :
    accAt0 V c t.val t.isLt = k0_pay2 (iblk0 V c 0 t) (iblk0 V c 1 t) k0_pay1 := by
  obtain ⟨n, hn⟩ := t
  cases n with
  | zero => rfl
  | succ n => exact congrArg (k0_pay2 _ _) (if_pos h0)
theorem accAt0_acc (V : EntryVal F) (c : Dev nD) (t : Fin cfg0.N) (h0 : ¬t.val % 4 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

theorem scopedRestOwns0 (c : Dev nD) :
    (Pipeline.scopedRest (Ix := Unit) (Name := ℕ) (U := UR sig nD τ) (Lvl := ℕ) (Val := Elt F) spec0 c : sProp 𝕄)
      = iprop(iprop(∃ d, owns (c : Thread nD τ) (Memref.whole cc0_scratch0) fullShare d) ∗ Pipeline.scopedRestBut (Ix := Unit) (Name := ℕ) (U := UR sig nD τ) (Lvl := ℕ) (Val := Elt F) spec0 c [cc0_scratch0]) := by
  rw [scopedRest0_split]; simp only [owns_whole]; try rfl

/-- The invariant before position `n`: the accumulator holds what position `n - 1` left (anything before the first). -/
def Phi0 (V : EntryVal F) (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) (Memref.whole cc0_scratch0) fullShare (accAt0 V c n hn) ∗ Pipeline.scopedRestBut (Ix := Unit) (Name := ℕ) (U := UR sig nD τ) (Lvl := ℕ) (Val := Elt F) spec0 c [cc0_scratch0])

theorem Phi0_pos (V : EntryVal F) (c : Dev nD) (n : ℕ) (h : n ≤ cfg0.N) (hz : n ≠ 0) :
    Phi0 V c n h = iprop(owns (c : Thread nD τ) (Memref.whole cc0_scratch0) fullShare (accAt0 V c (n - 1) (by omega)) ∗ Pipeline.scopedRestBut (Ix := Unit) (Name := ℕ) (U := UR sig nD τ) (Lvl := ℕ) (Val := Elt F) spec0 c [cc0_scratch0]) := by
  cases n with
  | zero => exact absurd rfl hz
  | succ n => rfl

/-- At every position the invariant holds the accumulator at some contents. -/
theorem Phi0_some (V : EntryVal F) (c : Dev nD) (n : ℕ) (h : n ≤ cfg0.N) :
    Phi0 V c n h ⊢ iprop(iprop(∃ d, owns (c : Thread nD τ) (Memref.whole cc0_scratch0) fullShare d) ∗ Pipeline.scopedRestBut (Ix := Unit) (Name := ℕ) (U := UR sig nD τ) (Lvl := ℕ) (Val := Elt F) spec0 c [cc0_scratch0]) := by
  by_cases hz : n = 0
  · subst hz; rw [← scopedRestOwns0]; exact .rfl
  rw [Phi0_pos V c n h hz]
  iintro ⟨HS0, HR⟩
  isplitl [HS0]; · iexists _; iexact HS0
  iexact HR

def dat0 (V : EntryVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q _ := fullShare
  owed _ := 0

theorem A_eq0 (V : EntryVal F) (c : Dev nD) (w : Fin cfg0.W) : (dat0 V c).A w = V c (Pipeline.arrRef spec0 w) := rfl
theorem q_eq0 (V : EntryVal F) (c : Dev nD) (w : Fin cfg0.W) : (dat0 V c).q w = fullShare := rfl
theorem owed_eq0 (V : EntryVal F) (c : Dev nD) (t) : (dat0 V c).owed t = 0 := rfl
theorem after0_2 (V : EntryVal F) (c : Dev nD) (t : Fin cfg0.N) : (dat0 V c).after 2 t = accAt0 V c t.val t.isLt := rfl

theorem before0_0 (V : EntryVal F) (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (V : EntryVal F) (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem hin0 (V : EntryVal F) (c : Dev nD) : (Pipeline.scopedRest (Ix := Unit) (Name := ℕ) (U := UR sig nD τ) (Lvl := ℕ) (Val := Elt F) spec0 c : sProp 𝕄) ⊢ (dat0 V c).Φ 0 := .rfl
theorem hout0 (V : EntryVal F) (c : Dev nD) : (dat0 V c).Φ (Fin.last cfg0.N) ⊢ (Pipeline.scopedRest (Ix := Unit) (Name := ℕ) (U := UR sig nD τ) (Lvl := ℕ) (Val := Elt F) spec0 c : sProp 𝕄) := by
  rw [scopedRestOwns0]; exact Phi0_some V c (Fin.last cfg0.N).val _

/-- The body at any point takes the accumulator from the invariant and gives it back at this point's contents, the output's
    buffer a copy of it; the inputs' buffers are left holding their blocks. -/
theorem body_obligation0 (V : EntryVal F) (c : Dev nD) : BodyObligation (dat0 (F := F) V c) (defs₀ (F := F)) Variants.none () Set.univ := fun t => by
  rw [bigSep_W0, bigSep_W0]
  show iprop(Phi0 V c t.castSucc.val _ ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame _ Set.univ (bodyAt0 t) fun _ => iprop(iprop(owns (c : Thread nD τ) (Memref.whole cc0_scratch0) fullShare (accAt0 V c t.val t.isLt) ∗ Pipeline.scopedRestBut (Ix := Unit) (Name := ℕ) (U := UR sig nD τ) (Lvl := ℕ) (Val := Elt F) spec0 c [cc0_scratch0])
      ∗ (dat0 V c).owesAt () t.castSucc
      ∗ owns (c : Thread nD τ) (ms0_0 t) fullShare (iblk0 V c 0 t) ∗ owns (c : Thread nD τ) (ms0_1 t) fullShare (iblk0 V c 1 t)
      ∗ owns (c : Thread nD τ) (ms0_2 t) fullShare (accAt0 V c t.val t.isLt))
  simp only [before0_0, before0_1, Fin.coe_castSucc]
  by_cases h0 : t.val % 4 = 0
  · rw [accAt0_reset V c t h0]
    iintro ⟨HΦ, Ho, ⟨%d0, H0⟩, ⟨%d1, H1⟩, ⟨%d2, H2⟩⟩
    ihave Hs := (Phi0_some V c _ _) $$ HΦ
    icases Hs with ⟨HS0, HR⟩
    iapply (runA0 c (grid0.coords t) (ms0_0 t) (hs0_0 t) (ms0_1 t) (hs0_1 t) (ms0_2 t) (hs0_2 t) (Memref.whole cc0_scratch0) (Memref.isWhole_whole _) (iblk0 V c 0 t) (iblk0 V c 1 t) ((hcond0 t).mpr h0) Set.univ _)
    iframe H0 H1 HS0
    isplitl [H2]; · iexists _; iexact H2
    iintro ⟨H0, H1, H2, HS0⟩
    iframe
  · rw [accAt0_acc V c t h0, Phi0_pos V c _ _ fun h => h0 (by rw [h])]
    iintro ⟨⟨HS0, HR⟩, Ho, ⟨%d0, H0⟩, ⟨%d1, H1⟩, ⟨%d2, H2⟩⟩
    iapply (runB0 c (grid0.coords t) (ms0_0 t) (hs0_0 t) (ms0_1 t) (hs0_1 t) (ms0_2 t) (hs0_2 t) (Memref.whole cc0_scratch0) (Memref.isWhole_whole _) (iblk0 V c 0 t) (iblk0 V c 1 t) (fun h => h0 ((hcond0 t).mp h)) _ Set.univ _)
    iframe H0 H1 HS0
    isplitl [H2]; · iexists _; iexact H2
    iintro ⟨H0, H1, H2, HS0⟩
    iframe

end Cert.Kernel.Hand

end
-- ==== Proof.K.R1Run.lean ====
import proofs.«108704_j53352083751414_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop := (Scalar.cmpi .ne (Scalar.extui (Scalar.cmpi .eq (BitVec.ofNat 32 (i 1).val) 0#32)) 0#32) = 1#1

/-- The accumulator is reset at the first of every four points of the row-major walk: decided over the grid. -/
theorem hcond1 : ∀ t : Fin cfg1.N, cond1 (grid1.coords t) ↔ t.val % 4 = 0 :=
  (by decide +kernel : ∀ t : Fin grid1.N, cond1 (grid1.coords t) ↔ t.val % 4 = 0)

theorem zeroOff1 : (![0, 0] : Fin 2 → Nat) = fun _ => 0 := by funext a; fin_cases a <;> rfl

variable (c : Dev nD) (i : grid1.Coords)
  (arg2 : Memref sig .tc .vmem S2048x1024 .f32) (harg2 : arg2.IsWhole) (arg3 : Memref sig .tc .vmem S2048x1 .f32) (harg3 : arg3.IsWhole)
  (arg4 : Memref sig .tc .vmem S1x1024 .f32) (harg4 : arg4.IsWhole) (arg5 : Memref sig .tc .vmem S1024x64 .f32) (harg5 : arg5.IsWhole)
  (arg6 : Memref sig .tc .vmem S2048x64 .f32) (harg6 : arg6.IsWhole) (arg7 : Memref sig .tc .vmem S2048x64 .f32) (harg7 : arg7.IsWhole)
  (x0 : Vec F S2048x1024 .f32) (x1 : Vec F S2048x1 .f32) (x2 : Vec F S1x1024 .f32) (x3 : Vec F S1024x64 .f32)

/-- What the body leaves when its accumulator started the point at `a`: the inputs untouched, the accumulator at the
    block product added to `a`, the output's buffer a copy of it. -/
abbrev left1 (a : Vec F S2048x64 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare (k1_pay2 x0 x1 x2 x3 a) ∗ owns (c : Thread nD τ) arg7 fullShare (k1_pay2 x0 x1 x2 x3 a))

/-- Where the accumulator is reset it starts the point at the zero block, whatever it held. -/
theorem runA1 (hc : cond1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (left1 c arg2 arg3 arg4 arg5 arg6 arg7 x0 x1 x2 x3 k1_pay1 -∗ K ⟨⟩))
      ⊢ wp frame (wpE (defs₀ (F := F)) Variants.none c none) E (cc1__matmulA_kernel i arg2 harg2 arg3 harg3 arg4 harg4 arg5 harg5 arg6 harg6 arg7 harg7) K := by
  simp only [cc1__matmulA_kernel_eq_skeleton]; unfold cc1__matmulA_kernel_skel
  unfold left1 owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x64.size (by sl_kernel_rfl))).trans ?_
    sl_unfold_words
    rw [View.canon_unit_zero (S := S2048x64) zeroOff1, View.readCov_cons_toLoadRect, View.readCov_unit_zero (S := S2048x64) _ zeroOff1]
    simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]
  iexists _; isplitr; swap; · iexact HS0
  ipureintro
  refine (View.read_writes_eq_canon _ _ _ (View.cover_of_tiledL _ S2048x64.size (by sl_kernel_rfl))).trans ?_
  sl_unfold_words
  rw [View.canon_cons_unit_zero (S := S2048x64) zeroOff1, View.readCov_unit_zero (S := S2048x64) _ zeroOff1]
  simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]

/-- Elsewhere it goes on from what it holds. -/
theorem runB1 (hc : ¬cond1 i) (xs0 : Vec F S2048x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs0
        ∗ (left1 c arg2 arg3 arg4 arg5 arg6 arg7 x0 x1 x2 x3 xs0 -∗ K ⟨⟩))
      ⊢ wp frame (wpE (defs₀ (F := F)) Variants.none c none) E (cc1__matmulA_kernel i arg2 harg2 arg3 harg3 arg4 harg4 arg5 harg5 arg6 harg6 arg7 harg7) K := by
  simp only [cc1__matmulA_kernel_eq_skeleton]; unfold cc1__matmulA_kernel_skel
  unfold left1 owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x64.size (by sl_kernel_rfl))).trans ?_
    sl_unfold_words
    rw [View.canon_unit_zero (S := S2048x64) zeroOff1, View.readCov_unit_zero (S := S2048x64) _ zeroOff1]
    simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]
  iexists _; isplitr; swap; · iexact HS0
  ipureintro
  refine (View.read_writes_eq_canon _ _ _ (View.cover_of_tiledL _ S2048x64.size (by sl_kernel_rfl))).trans ?_
  sl_unfold_words
  rw [View.canon_unit_zero (S := S2048x64) zeroOff1]
  simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]

end Cert.Kernel.Hand

end
-- ==== Proof.K.R1Dat.lean ====
import proofs.«108704_j53352083751414_1_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk1 (V : EntryVal F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)

/-- The accumulator after the body at position `n`: the point's block product added to the zero block at the first of
    every four positions, and to what position `n - 1` left at the others. -/
def accAt1 (V : EntryVal F) (c : Dev nD) : (n : ℕ) → n < cfg1.N → Vec F S2048x64 .f32
  | 0, hn => k1_pay2 (iblk1 V c 0 ⟨0, hn⟩) (iblk1 V c 1 ⟨0, hn⟩) (iblk1 V c 2 ⟨0, hn⟩) (iblk1 V c 3 ⟨0, hn⟩) k1_pay1
  | n + 1, hn => k1_pay2 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay1 else accAt1 V c n (Nat.lt_of_succ_lt hn))

theorem accAt1_reset (V : EntryVal F) (c : Dev nD) (t : Fin cfg1.N) (h0 : t.val % 4 = 0) :
    accAt1 V c t.val t.isLt = k1_pay2 (iblk1 V c 0 t) (iblk1 V c 1 t) (iblk1 V c 2 t) (iblk1 V c 3 t) k1_pay1 := by
  obtain ⟨n, hn⟩ := t
  cases n with
  | zero => rfl
  | succ n => exact congrArg (k1_pay2 _ _ _ _) (if_pos h0)
theorem accAt1_acc (V : EntryVal F) (c : Dev nD) (t : Fin cfg1.N) (h0 : ¬t.val % 4 = 0) :
    accAt1 V c t.val t.isLt = k1_pay2 (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd (Nat.zero_mod _) h0
  | succ n => exact congrArg (k1_pay2 _ _ _ _) (if_neg h0)

theorem scopedRestOwns1 (c : Dev nD) :
    (Pipeline.scopedRest (Ix := Unit) (Name := ℕ) (U := UR sig nD τ) (Lvl := ℕ) (Val := Elt F) spec1 c : sProp 𝕄)
      = iprop(iprop(∃ d, owns (c : Thread nD τ) (Memref.whole cc1_scratch0) fullShare d) ∗ Pipeline.scopedRestBut (Ix := Unit) (Name := ℕ) (U := UR sig nD τ) (Lvl := ℕ) (Val := Elt F) spec1 c [cc1_scratch0]) := by
  rw [scopedRest1_split]; simp only [owns_whole]; try rfl

/-- The invariant before position `n`: the accumulator holds what position `n - 1` left (anything before the first). -/
def Phi1 (V : EntryVal F) (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) (Memref.whole cc1_scratch0) fullShare (accAt1 V c n hn) ∗ Pipeline.scopedRestBut (Ix := Unit) (Name := ℕ) (U := UR sig nD τ) (Lvl := ℕ) (Val := Elt F) spec1 c [cc1_scratch0])

theorem Phi1_pos (V : EntryVal F) (c : Dev nD) (n : ℕ) (h : n ≤ cfg1.N) (hz : n ≠ 0) :
    Phi1 V c n h = iprop(owns (c : Thread nD τ) (Memref.whole cc1_scratch0) fullShare (accAt1 V c (n - 1) (by omega)) ∗ Pipeline.scopedRestBut (Ix := Unit) (Name := ℕ) (U := UR sig nD τ) (Lvl := ℕ) (Val := Elt F) spec1 c [cc1_scratch0]) := by
  cases n with
  | zero => exact absurd rfl hz
  | succ n => rfl

/-- At every position the invariant holds the accumulator at some contents. -/
theorem Phi1_some (V : EntryVal F) (c : Dev nD) (n : ℕ) (h : n ≤ cfg1.N) :
    Phi1 V c n h ⊢ iprop(iprop(∃ d, owns (c : Thread nD τ) (Memref.whole cc1_scratch0) fullShare d) ∗ Pipeline.scopedRestBut (Ix := Unit) (Name := ℕ) (U := UR sig nD τ) (Lvl := ℕ) (Val := Elt F) spec1 c [cc1_scratch0]) := by
  by_cases hz : n = 0
  · subst hz; rw [← scopedRestOwns1]; exact .rfl
  rw [Phi1_pos V c n h hz]
  iintro ⟨HS0, HR⟩
  isplitl [HS0]; · iexists _; iexact HS0
  iexact HR

def dat1 (V : EntryVal F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt1 V c t.val t.isLt
  Φ t := Phi1 V c t.val (Nat.le_of_lt_succ t.isLt)
  q _ := fullShare
  owed _ := 0

theorem A_eq1 (V : EntryVal F) (c : Dev nD) (w : Fin cfg1.W) : (dat1 V c).A w = V c (Pipeline.arrRef spec1 w) := rfl
theorem q_eq1 (V : EntryVal F) (c : Dev nD) (w : Fin cfg1.W) : (dat1 V c).q w = fullShare := rfl
theorem owed_eq1 (V : EntryVal F) (c : Dev nD) (t) : (dat1 V c).owed t = 0 := rfl
theorem after1_4 (V : EntryVal F) (c : Dev nD) (t : Fin cfg1.N) : (dat1 V c).after 4 t = accAt1 V c t.val t.isLt := rfl

theorem before1_0 (V : EntryVal F) (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (V : EntryVal F) (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (V : EntryVal F) (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (V : EntryVal F) (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem hin1 (V : EntryVal F) (c : Dev nD) : (Pipeline.scopedRest (Ix := Unit) (Name := ℕ) (U := UR sig nD τ) (Lvl := ℕ) (Val := Elt F) spec1 c : sProp 𝕄) ⊢ (dat1 V c).Φ 0 := .rfl
theorem hout1 (V : EntryVal F) (c : Dev nD) : (dat1 V c).Φ (Fin.last cfg1.N) ⊢ (Pipeline.scopedRest (Ix := Unit) (Name := ℕ) (U := UR sig nD τ) (Lvl := ℕ) (Val := Elt F) spec1 c : sProp 𝕄) := by
  rw [scopedRestOwns1]; exact Phi1_some V c (Fin.last cfg1.N).val _

/-- The body at any point takes the accumulator from the invariant and gives it back at this point's contents, the output's
    buffer a copy of it; the inputs' buffers are left holding their blocks. -/
theorem body_obligation1 (V : EntryVal F) (c : Dev nD) : BodyObligation (dat1 (F := F) V c) (defs₀ (F := F)) Variants.none () Set.univ := fun t => by
  rw [bigSep_W1, bigSep_W1]
  show iprop(Phi1 V c t.castSucc.val _ ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame _ Set.univ (bodyAt1 t) fun _ => iprop(iprop(owns (c : Thread nD τ) (Memref.whole cc1_scratch0) fullShare (accAt1 V c t.val t.isLt) ∗ Pipeline.scopedRestBut (Ix := Unit) (Name := ℕ) (U := UR sig nD τ) (Lvl := ℕ) (Val := Elt F) spec1 c [cc1_scratch0])
      ∗ (dat1 V c).owesAt () t.castSucc
      ∗ owns (c : Thread nD τ) (ms1_0 t) fullShare (iblk1 V c 0 t) ∗ owns (c : Thread nD τ) (ms1_1 t) fullShare (iblk1 V c 1 t)
      ∗ owns (c : Thread nD τ) (ms1_2 t) fullShare (iblk1 V c 2 t) ∗ owns (c : Thread nD τ) (ms1_3 t) fullShare (iblk1 V c 3 t)
      ∗ owns (c : Thread nD τ) (ms1_4 t) fullShare (accAt1 V c t.val t.isLt))
  simp only [before1_0, before1_1, before1_2, before1_3, Fin.coe_castSucc]
  by_cases h0 : t.val % 4 = 0
  · rw [accAt1_reset V c t h0]
    iintro ⟨HΦ, Ho, ⟨%d0, H0⟩, ⟨%d1, H1⟩, ⟨%d2, H2⟩, ⟨%d3, H3⟩, ⟨%d4, H4⟩⟩
    ihave Hs := (Phi1_some V c _ _) $$ HΦ
    icases Hs with ⟨HS0, HR⟩
    iapply (runA1 c (grid1.coords t) (ms1_0 t) (hs1_0 t) (ms1_1 t) (hs1_1 t) (ms1_2 t) (hs1_2 t) (ms1_3 t) (hs1_3 t) (ms1_4 t) (hs1_4 t) (Memref.whole cc1_scratch0) (Memref.isWhole_whole _) (iblk1 V c 0 t) (iblk1 V c 1 t) (iblk1 V c 2 t) (iblk1 V c 3 t) ((hcond1 t).mpr h0) Set.univ _)
    iframe H0 H1 H2 H3 HS0
    isplitl [H4]; · iexists _; iexact H4
    iintro ⟨H0, H1, H2, H3, H4, HS0⟩
    iframe
  · rw [accAt1_acc V c t h0, Phi1_pos V c _ _ fun h => h0 (by rw [h])]
    iintro ⟨⟨HS0, HR⟩, Ho, ⟨%d0, H0⟩, ⟨%d1, H1⟩, ⟨%d2, H2⟩, ⟨%d3, H3⟩, ⟨%d4, H4⟩⟩
    iapply (runB1 c (grid1.coords t) (ms1_0 t) (hs1_0 t) (ms1_1 t) (hs1_1 t) (ms1_2 t) (hs1_2 t) (ms1_3 t) (hs1_3 t) (ms1_4 t) (hs1_4 t) (Memref.whole cc1_scratch0) (Memref.isWhole_whole _) (iblk1 V c 0 t) (iblk1 V c 1 t) (iblk1 V c 2 t) (iblk1 V c 3 t) (fun h => h0 ((hcond1 t).mp h)) _ Set.univ _)
    iframe H0 H1 H2 H3 HS0
    isplitl [H4]; · iexists _; iexact H4
    iintro ⟨H0, H1, H2, H3, H4, HS0⟩
    iframe

end Cert.Kernel.Hand

end
-- ==== Proof.K.R2Run.lean ====
import proofs.«108704_j53352083751414_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2 (i : grid2.Coords) : Prop := (Scalar.cmpi .ne (Scalar.extui (Scalar.cmpi .eq (BitVec.ofNat 32 (i 1).val) 0#32)) 0#32) = 1#1

/-- The accumulator is reset at the first of every four points of the row-major walk: decided over the grid. -/
theorem hcond2 : ∀ t : Fin cfg2.N, cond2 (grid2.coords t) ↔ t.val % 4 = 0 :=
  (by decide +kernel : ∀ t : Fin grid2.N, cond2 (grid2.coords t) ↔ t.val % 4 = 0)

theorem zeroOff2 : (![0, 0] : Fin 2 → Nat) = fun _ => 0 := by funext a; fin_cases a <;> rfl

variable (c : Dev nD) (i : grid2.Coords)
  (arg2 : Memref sig .tc .vmem S2048x1024 .f32) (harg2 : arg2.IsWhole) (arg3 : Memref sig .tc .vmem S2048x1 .f32) (harg3 : arg3.IsWhole)
  (arg4 : Memref sig .tc .vmem S1024x1 .f32) (harg4 : arg4.IsWhole) (arg5 : Memref sig .tc .vmem S1024x1 .f32) (harg5 : arg5.IsWhole)
  (x0 : Vec F S2048x1024 .f32) (x1 : Vec F S2048x1 .f32)

/-- What the body leaves when its accumulator started the point at `a`: the inputs untouched, the accumulator at the
    block product added to `a`, the output's buffer a copy of it. -/
abbrev left2 (a : Vec F S1024x1 .f32) : sProp 𝕄 :=
  iprop(owns (c : Thread nD τ) arg2 fullShare x0 ∗ owns (c : Thread nD τ) arg3 fullShare x1
    ∗ owns (c : Thread nD τ) arg4 fullShare (k2_pay2 x0 x1 a) ∗ owns (c : Thread nD τ) arg5 fullShare (k2_pay2 x0 x1 a))

/-- Where the accumulator is reset it starts the point at the zero block, whatever it held. -/
theorem runA2 (hc : cond2 i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (left2 c arg2 arg3 arg4 arg5 x0 x1 k2_pay1 -∗ K ⟨⟩))
      ⊢ wp frame (wpE (defs₀ (F := F)) Variants.none c none) E (cc2__matmulT_kernel i arg2 harg2 arg3 harg3 arg4 harg4 arg5 harg5) K := by
  simp only [cc2__matmulT_kernel_eq_skeleton]; unfold cc2__matmulT_kernel_skel
  unfold left2 owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x1.size (by sl_kernel_rfl))).trans ?_
    sl_unfold_words
    rw [View.canon_unit_zero (S := S1024x1) zeroOff2, View.readCov_cons_toLoadRect, View.readCov_cons_toLoadRect]
    simp only [View.readAt_eq_ld, harg2.read_unread, harg3.read_unread, harg5.read_unread, View.ld_unit_zero (S := S2048x1024) zeroOff2, View.ld_unit_zero (S := S2048x1) zeroOff2, View.ld_unit_zero (S := S1024x1) zeroOff2]
  iexists _; isplitr; swap; · iexact HS0
  ipureintro
  refine (View.read_writes_eq_canon _ _ _ (View.cover_of_tiledL _ S1024x1.size (by sl_kernel_rfl))).trans ?_
  sl_unfold_words
  rw [View.canon_cons_unit_zero (S := S1024x1) zeroOff2, View.readCov_cons_toLoadRect]
  simp only [View.readAt_eq_ld, harg2.read_unread, harg3.read_unread, harg5.read_unread, View.ld_unit_zero (S := S2048x1024) zeroOff2, View.ld_unit_zero (S := S2048x1) zeroOff2, View.ld_unit_zero (S := S1024x1) zeroOff2]

/-- Elsewhere it goes on from what it holds. -/
theorem runB2 (hc : ¬cond2 i) (xs0 : Vec F S1024x1 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs0
        ∗ (left2 c arg2 arg3 arg4 arg5 x0 x1 xs0 -∗ K ⟨⟩))
      ⊢ wp frame (wpE (defs₀ (F := F)) Variants.none c none) E (cc2__matmulT_kernel i arg2 harg2 arg3 harg3 arg4 harg4 arg5 harg5) K := by
  simp only [cc2__matmulT_kernel_eq_skeleton]; unfold cc2__matmulT_kernel_skel
  unfold left2 owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x1.size (by sl_kernel_rfl))).trans ?_
    sl_unfold_words
    rw [View.canon_unit_zero (S := S1024x1) zeroOff2, View.readCov_cons_toLoadRect]
    simp only [View.readAt_eq_ld, harg2.read_unread, harg3.read_unread, harg5.read_unread, View.ld_unit_zero (S := S2048x1024) zeroOff2, View.ld_unit_zero (S := S2048x1) zeroOff2, View.ld_unit_zero (S := S1024x1) zeroOff2]
  iexists _; isplitr; swap; · iexact HS0
  ipureintro
  refine (View.read_writes_eq_canon _ _ _ (View.cover_of_tiledL _ S1024x1.size (by sl_kernel_rfl))).trans ?_
  sl_unfold_words
  rw [View.canon_unit_zero (S := S1024x1) zeroOff2]
  simp only [View.readAt_eq_ld, harg2.read_unread, harg3.read_unread, harg5.read_unread, View.ld_unit_zero (S := S2048x1024) zeroOff2, View.ld_unit_zero (S := S2048x1) zeroOff2, View.ld_unit_zero (S := S1024x1) zeroOff2]

end Cert.Kernel.Hand

end
-- ==== Proof.K.R2Dat.lean ====
import proofs.«108704_j53352083751414_1_alg».proof.Proof.K.R2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk2 (V : EntryVal F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)

/-- The accumulator after the body at position `n`: the point's block product added to the zero block at the first of
    every four positions, and to what position `n - 1` left at the others. -/
def accAt2 (V : EntryVal F) (c : Dev nD) : (n : ℕ) → n < cfg2.N → Vec F S1024x1 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 4 = 0 then k2_pay1 else accAt2 V c n (Nat.lt_of_succ_lt hn))

theorem accAt2_reset (V : EntryVal F) (c : Dev nD) (t : Fin cfg2.N) (h0 : t.val % 4 = 0) :
    accAt2 V c t.val t.isLt = k2_pay2 (iblk2 V c 0 t) (iblk2 V c 1 t) k2_pay1 := by
  obtain ⟨n, hn⟩ := t
  cases n with
  | zero => rfl
  | succ n => exact congrArg (k2_pay2 _ _) (if_pos h0)
theorem accAt2_acc (V : EntryVal F) (c : Dev nD) (t : Fin cfg2.N) (h0 : ¬t.val % 4 = 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact congrArg (k2_pay2 _ _) (if_neg h0)

theorem scopedRestOwns2 (c : Dev nD) :
    (Pipeline.scopedRest (Ix := Unit) (Name := ℕ) (U := UR sig nD τ) (Lvl := ℕ) (Val := Elt F) spec2 c : sProp 𝕄)
      = iprop(iprop(∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  rw [scopedRest2_split]; simp only [owns_whole]; try rfl

/-- The invariant before position `n`: the accumulator holds what position `n - 1` left (anything before the first). -/
def Phi2 (V : EntryVal F) (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) (Memref.whole cc2_scratch0) fullShare (accAt2 V c n hn) ∗ Pipeline.scopedRestBut (Ix := Unit) (Name := ℕ) (U := UR sig nD τ) (Lvl := ℕ) (Val := Elt F) spec2 c [cc2_scratch0])

theorem Phi2_pos (V : EntryVal F) (c : Dev nD) (n : ℕ) (h : n ≤ cfg2.N) (hz : n ≠ 0) :
    Phi2 V c n h = iprop(owns (c : Thread nD τ) (Memref.whole cc2_scratch0) fullShare (accAt2 V c (n - 1) (by omega)) ∗ Pipeline.scopedRestBut (Ix := Unit) (Name := ℕ) (U := UR sig nD τ) (Lvl := ℕ) (Val := Elt F) spec2 c [cc2_scratch0]) := by
  cases n with
  | zero => exact absurd rfl hz
  | succ n => rfl

/-- At every position the invariant holds the accumulator at some contents. -/
theorem Phi2_some (V : EntryVal F) (c : Dev nD) (n : ℕ) (h : n ≤ cfg2.N) :
    Phi2 V c n h ⊢ iprop(iprop(∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  by_cases hz : n = 0
  · subst hz; rw [← scopedRestOwns2]; exact .rfl
  rw [Phi2_pos V c n h hz]
  iintro ⟨HS0, HR⟩
  isplitl [HS0]; · iexists _; iexact HS0
  iexact HR

def dat2 (V : EntryVal F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := Phi2 V c t.val (Nat.le_of_lt_succ t.isLt)
  q _ := fullShare
  owed _ := 0

theorem A_eq2 (V : EntryVal F) (c : Dev nD) (w : Fin cfg2.W) : (dat2 V c).A w = V c (Pipeline.arrRef spec2 w) := rfl
theorem q_eq2 (V : EntryVal F) (c : Dev nD) (w : Fin cfg2.W) : (dat2 V c).q w = fullShare := rfl
theorem owed_eq2 (V : EntryVal F) (c : Dev nD) (t) : (dat2 V c).owed t = 0 := rfl
theorem after2_2 (V : EntryVal F) (c : Dev nD) (t : Fin cfg2.N) : (dat2 V c).after 2 t = accAt2 V c t.val t.isLt := rfl

theorem before2_0 (V : EntryVal F) (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (V : EntryVal F) (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem hin2 (V : EntryVal F) (c : Dev nD) : (Pipeline.scopedRest (Ix := Unit) (Name := ℕ) (U := UR sig nD τ) (Lvl := ℕ) (Val := Elt F) spec2 c : sProp 𝕄) ⊢ (dat2 V c).Φ 0 := .rfl
theorem hout2 (V : EntryVal F) (c : Dev nD) : (dat2 V c).Φ (Fin.last cfg2.N) ⊢ (Pipeline.scopedRest (Ix := Unit) (Name := ℕ) (U := UR sig nD τ) (Lvl := ℕ) (Val := Elt F) spec2 c : sProp 𝕄) := by
  rw [scopedRestOwns2]; exact Phi2_some V c (Fin.last cfg2.N).val _

/-- The body at any point takes the accumulator from the invariant and gives it back at this point's contents, the output's
    buffer a copy of it; the inputs' buffers are left holding their blocks. -/
theorem body_obligation2 (V : EntryVal F) (c : Dev nD) : BodyObligation (dat2 (F := F) V c) (defs₀ (F := F)) Variants.none () Set.univ := fun t => by
  rw [bigSep_W2, bigSep_W2]
  show iprop(Phi2 V c t.castSucc.val _ ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame _ Set.univ (bodyAt2 t) fun _ => iprop(iprop(owns (c : Thread nD τ) (Memref.whole cc2_scratch0) fullShare (accAt2 V c t.val t.isLt) ∗ Pipeline.scopedRestBut (Ix := Unit) (Name := ℕ) (U := UR sig nD τ) (Lvl := ℕ) (Val := Elt F) spec2 c [cc2_scratch0])
      ∗ (dat2 V c).owesAt () t.castSucc
      ∗ owns (c : Thread nD τ) (ms2_0 t) fullShare (iblk2 V c 0 t) ∗ owns (c : Thread nD τ) (ms2_1 t) fullShare (iblk2 V c 1 t)
      ∗ owns (c : Thread nD τ) (ms2_2 t) fullShare (accAt2 V c t.val t.isLt))
  simp only [before2_0, before2_1, Fin.coe_castSucc]
  by_cases h0 : t.val % 4 = 0
  · rw [accAt2_reset V c t h0]
    iintro ⟨HΦ, Ho, ⟨%d0, H0⟩, ⟨%d1, H1⟩, ⟨%d2, H2⟩⟩
    ihave Hs := (Phi2_some V c _ _) $$ HΦ
    icases Hs with ⟨HS0, HR⟩
    iapply (runA2 c (grid2.coords t) (ms2_0 t) (hs2_0 t) (ms2_1 t) (hs2_1 t) (ms2_2 t) (hs2_2 t) (Memref.whole cc2_scratch0) (Memref.isWhole_whole _) (iblk2 V c 0 t) (iblk2 V c 1 t) ((hcond2 t).mpr h0) Set.univ _)
    iframe H0 H1 HS0
    isplitl [H2]; · iexists _; iexact H2
    iintro ⟨H0, H1, H2, HS0⟩
    iframe
  · rw [accAt2_acc V c t h0, Phi2_pos V c _ _ fun h => h0 (by rw [h])]
    iintro ⟨⟨HS0, HR⟩, Ho, ⟨%d0, H0⟩, ⟨%d1, H1⟩, ⟨%d2, H2⟩⟩
    iapply (runB2 c (grid2.coords t) (ms2_0 t) (hs2_0 t) (ms2_1 t) (hs2_1 t) (ms2_2 t) (hs2_2 t) (Memref.whole cc2_scratch0) (Memref.isWhole_whole _) (iblk2 V c 0 t) (iblk2 V c 1 t) (fun h => h0 ((hcond2 t).mp h)) _ Set.univ _)
    iframe H0 H1 HS0
    isplitl [H2]; · iexists _; iexact H2
    iintro ⟨H0, H1, H2, HS0⟩
    iframe

end Cert.Kernel.Hand

end
-- ==== Proof.K.R3Run.lean ====
import proofs.«108704_j53352083751414_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3 (i : grid3.Coords) : Prop := (Scalar.cmpi .ne (Scalar.extui (Scalar.cmpi .eq (BitVec.ofNat 32 (i 1).val) 0#32)) 0#32) = 1#1

/-- The accumulator is reset at the first of every four points of the row-major walk: decided over the grid. -/
theorem hcond3 : ∀ t : Fin cfg3.N, cond3 (grid3.coords t) ↔ t.val % 4 = 0 :=
  (by decide +kernel : ∀ t : Fin grid3.N, cond3 (grid3.coords t) ↔ t.val % 4 = 0)

theorem zeroOff3 : (![0, 0] : Fin 2 → Nat) = fun _ => 0 := by funext a; fin_cases a <;> rfl

variable (c : Dev nD) (i : grid3.Coords)
  (arg2 : Memref sig .tc .vmem S2048x1024 .f32) (harg2 : arg2.IsWhole) (arg3 : Memref sig .tc .vmem S2048x1 .f32) (harg3 : arg3.IsWhole)
  (arg4 : Memref sig .tc .vmem S1x1024 .f32) (harg4 : arg4.IsWhole) (arg5 : Memref sig .tc .vmem S1024x1 .f32) (harg5 : arg5.IsWhole)
  (arg6 : Memref sig .tc .vmem S2048x1 .f32) (harg6 : arg6.IsWhole) (arg7 : Memref sig .tc .vmem S2048x1 .f32) (harg7 : arg7.IsWhole)
  (x0 : Vec F S2048x1024 .f32) (x1 : Vec F S2048x1 .f32) (x2 : Vec F S1x1024 .f32) (x3 : Vec F S1024x1 .f32)

/-- What the body leaves when its accumulator started the point at `a`: the inputs untouched, the accumulator at the
    block product added to `a`, the output's buffer a copy of it. -/
abbrev left3 (a : Vec F S2048x1 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare (k3_pay2 x0 x1 x2 x3 a) ∗ owns (c : Thread nD τ) arg7 fullShare (k3_pay2 x0 x1 x2 x3 a))

/-- Where the accumulator is reset it starts the point at the zero block, whatever it held. -/
theorem runA3 (hc : cond3 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (left3 c arg2 arg3 arg4 arg5 arg6 arg7 x0 x1 x2 x3 k3_pay1 -∗ K ⟨⟩))
      ⊢ wp frame (wpE (defs₀ (F := F)) Variants.none c none) E (cc3__matmulA_kernel i arg2 harg2 arg3 harg3 arg4 harg4 arg5 harg5 arg6 harg6 arg7 harg7) K := by
  simp only [cc3__matmulA_kernel_eq_skeleton]; unfold cc3__matmulA_kernel_skel
  unfold left3 owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x1.size (by sl_kernel_rfl))).trans ?_
    sl_unfold_words
    rw [View.canon_unit_zero (S := S2048x1) zeroOff3, View.readCov_cons_toLoadRect, View.readCov_unit_zero (S := S2048x1) _ zeroOff3]
    simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]
  iexists _; isplitr; swap; · iexact HS0
  ipureintro
  refine (View.read_writes_eq_canon _ _ _ (View.cover_of_tiledL _ S2048x1.size (by sl_kernel_rfl))).trans ?_
  sl_unfold_words
  rw [View.canon_cons_unit_zero (S := S2048x1) zeroOff3, View.readCov_unit_zero (S := S2048x1) _ zeroOff3]
  simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]

/-- Elsewhere it goes on from what it holds. -/
theorem runB3 (hc : ¬cond3 i) (xs0 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs0
        ∗ (left3 c arg2 arg3 arg4 arg5 arg6 arg7 x0 x1 x2 x3 xs0 -∗ K ⟨⟩))
      ⊢ wp frame (wpE (defs₀ (F := F)) Variants.none c none) E (cc3__matmulA_kernel i arg2 harg2 arg3 harg3 arg4 harg4 arg5 harg5 arg6 harg6 arg7 harg7) K := by
  simp only [cc3__matmulA_kernel_eq_skeleton]; unfold cc3__matmulA_kernel_skel
  unfold left3 owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x1.size (by sl_kernel_rfl))).trans ?_
    sl_unfold_words
    rw [View.canon_unit_zero (S := S2048x1) zeroOff3, View.readCov_unit_zero (S := S2048x1) _ zeroOff3]
    simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]
  iexists _; isplitr; swap; · iexact HS0
  ipureintro
  refine (View.read_writes_eq_canon _ _ _ (View.cover_of_tiledL _ S2048x1.size (by sl_kernel_rfl))).trans ?_
  sl_unfold_words
  rw [View.canon_unit_zero (S := S2048x1) zeroOff3]
  simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]

end Cert.Kernel.Hand

end
-- ==== Proof.K.R3Dat.lean ====
import proofs.«108704_j53352083751414_1_alg».proof.Proof.K.R3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk3 (V : EntryVal F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x1 .f32 := win3_4.stage (cfg3.slots t 4)
abbrev hs3_4 (t : Fin cfg3.N) : (ms3_4 t).IsWhole := hstage3_4 ((cfg3.slots t 4).cast nbuf3_4)

/-- The accumulator after the body at position `n`: the point's block product added to the zero block at the first of
    every four positions, and to what position `n - 1` left at the others. -/
def accAt3 (V : EntryVal F) (c : Dev nD) : (n : ℕ) → n < cfg3.N → Vec F S2048x1 .f32
  | 0, hn => k3_pay2 (iblk3 V c 0 ⟨0, hn⟩) (iblk3 V c 1 ⟨0, hn⟩) (iblk3 V c 2 ⟨0, hn⟩) (iblk3 V c 3 ⟨0, hn⟩) k3_pay1
  | n + 1, hn => k3_pay2 (iblk3 V c 0 ⟨n + 1, hn⟩) (iblk3 V c 1 ⟨n + 1, hn⟩) (iblk3 V c 2 ⟨n + 1, hn⟩) (iblk3 V c 3 ⟨n + 1, hn⟩)
      (if (n + 1) % 4 = 0 then k3_pay1 else accAt3 V c n (Nat.lt_of_succ_lt hn))

theorem accAt3_reset (V : EntryVal F) (c : Dev nD) (t : Fin cfg3.N) (h0 : t.val % 4 = 0) :
    accAt3 V c t.val t.isLt = k3_pay2 (iblk3 V c 0 t) (iblk3 V c 1 t) (iblk3 V c 2 t) (iblk3 V c 3 t) k3_pay1 := by
  obtain ⟨n, hn⟩ := t
  cases n with
  | zero => rfl
  | succ n => exact congrArg (k3_pay2 _ _ _ _) (if_pos h0)
theorem accAt3_acc (V : EntryVal F) (c : Dev nD) (t : Fin cfg3.N) (h0 : ¬t.val % 4 = 0) :
    accAt3 V c t.val t.isLt = k3_pay2 (iblk3 V c 0 t) (iblk3 V c 1 t) (iblk3 V c 2 t) (iblk3 V c 3 t) (accAt3 V c (t.val - 1) (Nat.lt_of_le_of_lt (Nat.sub_le _ _) t.isLt)) := by
  obtain ⟨n, hn⟩ := t
  cases n with
  | zero => exact absurd (Nat.zero_mod _) h0
  | succ n => exact congrArg (k3_pay2 _ _ _ _) (if_neg h0)

theorem scopedRestOwns3 (c : Dev nD) :
    (Pipeline.scopedRest (Ix := Unit) (Name := ℕ) (U := UR sig nD τ) (Lvl := ℕ) (Val := Elt F) spec3 c : sProp 𝕄)
      = iprop(iprop(∃ d, owns (c : Thread nD τ) (Memref.whole cc3_scratch0) fullShare d) ∗ Pipeline.scopedRestBut (Ix := Unit) (Name := ℕ) (U := UR sig nD τ) (Lvl := ℕ) (Val := Elt F) spec3 c [cc3_scratch0]) := by
  rw [scopedRest3_split]; simp only [owns_whole]; try rfl

/-- The invariant before position `n`: the accumulator holds what position `n - 1` left (anything before the first). -/
def Phi3 (V : EntryVal F) (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) (Memref.whole cc3_scratch0) fullShare (accAt3 V c n hn) ∗ Pipeline.scopedRestBut (Ix := Unit) (Name := ℕ) (U := UR sig nD τ) (Lvl := ℕ) (Val := Elt F) spec3 c [cc3_scratch0])

theorem Phi3_pos (V : EntryVal F) (c : Dev nD) (n : ℕ) (h : n ≤ cfg3.N) (hz : n ≠ 0) :
    Phi3 V c n h = iprop(owns (c : Thread nD τ) (Memref.whole cc3_scratch0) fullShare (accAt3 V c (n - 1) (by omega)) ∗ Pipeline.scopedRestBut (Ix := Unit) (Name := ℕ) (U := UR sig nD τ) (Lvl := ℕ) (Val := Elt F) spec3 c [cc3_scratch0]) := by
  cases n with
  | zero => exact absurd rfl hz
  | succ n => rfl

/-- At every position the invariant holds the accumulator at some contents. -/
theorem Phi3_some (V : EntryVal F) (c : Dev nD) (n : ℕ) (h : n ≤ cfg3.N) :
    Phi3 V c n h ⊢ iprop(iprop(∃ d, owns (c : Thread nD τ) (Memref.whole cc3_scratch0) fullShare d) ∗ Pipeline.scopedRestBut (Ix := Unit) (Name := ℕ) (U := UR sig nD τ) (Lvl := ℕ) (Val := Elt F) spec3 c [cc3_scratch0]) := by
  by_cases hz : n = 0
  · subst hz; rw [← scopedRestOwns3]; exact .rfl
  rw [Phi3_pos V c n h hz]
  iintro ⟨HS0, HR⟩
  isplitl [HS0]; · iexists _; iexact HS0
  iexact HR

def dat3 (V : EntryVal F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => accAt3 V c t.val t.isLt
  Φ t := Phi3 V c t.val (Nat.le_of_lt_succ t.isLt)
  q _ := fullShare
  owed _ := 0

theorem A_eq3 (V : EntryVal F) (c : Dev nD) (w : Fin cfg3.W) : (dat3 V c).A w = V c (Pipeline.arrRef spec3 w) := rfl
theorem q_eq3 (V : EntryVal F) (c : Dev nD) (w : Fin cfg3.W) : (dat3 V c).q w = fullShare := rfl
theorem owed_eq3 (V : EntryVal F) (c : Dev nD) (t) : (dat3 V c).owed t = 0 := rfl
theorem after3_4 (V : EntryVal F) (c : Dev nD) (t : Fin cfg3.N) : (dat3 V c).after 4 t = accAt3 V c t.val t.isLt := rfl

theorem before3_0 (V : EntryVal F) (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (V : EntryVal F) (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (V : EntryVal F) (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (V : EntryVal F) (c : Dev nD) (t : Fin cfg3.N) (d) : (dat3 V c).before 3 t d = iblk3 V c 3 t :=
  ((dat3 V c).before_in_eq_fetched 3 rfl (fun _ => rfl) (fun _ _ _ => rfl) (fun _ => rfl) t d).trans rfl

theorem hin3 (V : EntryVal F) (c : Dev nD) : (Pipeline.scopedRest (Ix := Unit) (Name := ℕ) (U := UR sig nD τ) (Lvl := ℕ) (Val := Elt F) spec3 c : sProp 𝕄) ⊢ (dat3 V c).Φ 0 := .rfl
theorem hout3 (V : EntryVal F) (c : Dev nD) : (dat3 V c).Φ (Fin.last cfg3.N) ⊢ (Pipeline.scopedRest (Ix := Unit) (Name := ℕ) (U := UR sig nD τ) (Lvl := ℕ) (Val := Elt F) spec3 c : sProp 𝕄) := by
  rw [scopedRestOwns3]; exact Phi3_some V c (Fin.last cfg3.N).val _

/-- The body at any point takes the accumulator from the invariant and gives it back at this point's contents, the output's
    buffer a copy of it; the inputs' buffers are left holding their blocks. -/
theorem body_obligation3 (V : EntryVal F) (c : Dev nD) : BodyObligation (dat3 (F := F) V c) (defs₀ (F := F)) Variants.none () Set.univ := fun t => by
  rw [bigSep_W3, bigSep_W3]
  show iprop(Phi3 V c t.castSucc.val _ ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))
      ∗ (∃ d, owns (c : Thread nD τ) (ms3_4 t) fullShare ((dat3 V c).before 4 t d)))
    ⊢ wp frame _ Set.univ (bodyAt3 t) fun _ => iprop(iprop(owns (c : Thread nD τ) (Memref.whole cc3_scratch0) fullShare (accAt3 V c t.val t.isLt) ∗ Pipeline.scopedRestBut (Ix := Unit) (Name := ℕ) (U := UR sig nD τ) (Lvl := ℕ) (Val := Elt F) spec3 c [cc3_scratch0])
      ∗ (dat3 V c).owesAt () t.castSucc
      ∗ owns (c : Thread nD τ) (ms3_0 t) fullShare (iblk3 V c 0 t) ∗ owns (c : Thread nD τ) (ms3_1 t) fullShare (iblk3 V c 1 t)
      ∗ owns (c : Thread nD τ) (ms3_2 t) fullShare (iblk3 V c 2 t) ∗ owns (c : Thread nD τ) (ms3_3 t) fullShare (iblk3 V c 3 t)
      ∗ owns (c : Thread nD τ) (ms3_4 t) fullShare (accAt3 V c t.val t.isLt))
  simp only [before3_0, before3_1, before3_2, before3_3, Fin.coe_castSucc]
  by_cases h0 : t.val % 4 = 0
  · rw [accAt3_reset V c t h0]
    iintro ⟨HΦ, Ho, ⟨%d0, H0⟩, ⟨%d1, H1⟩, ⟨%d2, H2⟩, ⟨%d3, H3⟩, ⟨%d4, H4⟩⟩
    ihave Hs := (Phi3_some V c _ _) $$ HΦ
    icases Hs with ⟨HS0, HR⟩
    iapply (runA3 c (grid3.coords t) (ms3_0 t) (hs3_0 t) (ms3_1 t) (hs3_1 t) (ms3_2 t) (hs3_2 t) (ms3_3 t) (hs3_3 t) (ms3_4 t) (hs3_4 t) (Memref.whole cc3_scratch0) (Memref.isWhole_whole _) (iblk3 V c 0 t) (iblk3 V c 1 t) (iblk3 V c 2 t) (iblk3 V c 3 t) ((hcond3 t).mpr h0) Set.univ _)
    iframe H0 H1 H2 H3 HS0
    isplitl [H4]; · iexists _; iexact H4
    iintro ⟨H0, H1, H2, H3, H4, HS0⟩
    iframe
  · rw [accAt3_acc V c t h0, Phi3_pos V c _ _ fun h => h0 (by rw [h])]
    iintro ⟨⟨HS0, HR⟩, Ho, ⟨%d0, H0⟩, ⟨%d1, H1⟩, ⟨%d2, H2⟩, ⟨%d3, H3⟩, ⟨%d4, H4⟩⟩
    iapply (runB3 c (grid3.coords t) (ms3_0 t) (hs3_0 t) (ms3_1 t) (hs3_1 t) (ms3_2 t) (hs3_2 t) (ms3_3 t) (hs3_3 t) (ms3_4 t) (hs3_4 t) (Memref.whole cc3_scratch0) (Memref.isWhole_whole _) (iblk3 V c 0 t) (iblk3 V c 1 t) (iblk3 V c 2 t) (iblk3 V c 3 t) (fun h => h0 ((hcond3 t).mp h)) _ Set.univ _)
    iframe H0 H1 H2 H3 HS0
    isplitl [H4]; · iexists _; iexact H4
    iintro ⟨H0, H1, H2, H3, H4, HS0⟩
    iframe

end Cert.Kernel.Hand

end
-- ==== Proof.K.Pdats.lean ====
import proofs.«108704_j53352083751414_1_alg».proof.Proof.K.R0Dat
import proofs.«108704_j53352083751414_1_alg».proof.Proof.K.R1Dat
import proofs.«108704_j53352083751414_1_alg».proof.Proof.K.R2Dat
import proofs.«108704_j53352083751414_1_alg».proof.Proof.K.R3Dat
import proofs.«108704_j53352083751414_1_alg».proof.Proof.Gen.Kernel.Regions
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (outs : Outs (F := F))

/-- Each region's entry contents: the valuation before its item. -/
abbrev EV0 : EntryVal F := fun c b => V1 m c b
abbrev EV1 : EntryVal F := fun c b => V2 m outs c b
abbrev EV2 : EntryVal F := fun c b => V8 m outs c b
abbrev EV3 : EntryVal F := fun c b => V9 m outs c b

/-- The four pipelines' proof data as one family. -/
def pdats : (p : Fin 4) → (c : Dev nD) → Dat τ (Elt F) Unit ℕ (UR sig nD τ) ℕ (cfgs p) c
  | ⟨0, _⟩ => fun c => dat0 (EV0 m) c
  | ⟨1, _⟩ => fun c => dat1 (EV1 m outs) c
  | ⟨2, _⟩ => fun c => dat2 (EV2 m outs) c
  | ⟨3, _⟩ => fun c => dat3 (EV3 m outs) c

abbrev 𝒱₀ : Variants := Variants.none
abbrev L : GSem nD τ sig → Finset Unit := fun _ => ∅
abbrev lv : GSem nD τ sig → Unit → ℕ := fun _ _ => 0
/-- What every item of @main passes on unchanged beside the buffers. -/
abbrev Rr (c : Dev nD) : sProp 𝕄 := iprop((∃ r, prngReg c r) ∗ ∃ W, owes (c : Thread nD τ) (0 : CellTallies nD τ sig Unit) W)

/-- What each region is asked to have left in its output array: what its own proof data compute. -/
abbrev OutsOk0 : Prop := ∀ c : Dev nD, outs 2 main_v7 c = (dat0 (EV0 m) c).arrAt 2 cfg0.N
abbrev OutsOk1 : Prop := ∀ c : Dev nD, outs 3 main_v8 c = (dat1 (EV1 m outs) c).arrAt 4 cfg1.N
abbrev OutsOk2 : Prop := ∀ c : Dev nD, outs 9 main_v32 c = (dat2 (EV2 m outs) c).arrAt 2 cfg2.N
abbrev OutsOk3 : Prop := ∀ c : Dev nD, outs 10 main_v33 c = (dat3 (EV3 m outs) c).arrAt 4 cfg3.N

end Cert.Kernel.Hand

end
-- ==== Proof.K.Seg.lean ====
import proofs.«108704_j53352083751414_1_alg».proof.Proof.K.Pdats
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

theorem owes_in {cfg : Cfg sig Λ₀} {c : Dev nD} (d : Dat τ (Elt F) Unit ℕ (UR sig nD τ) ℕ cfg c) (ho : d.owed 0 = 0) (hr : d.recorded 0 = Set.univ) :
    (iprop(∃ W, owes (c : Thread nD τ) (0 : CellTallies nD τ sig Unit) W) : sProp 𝕄) ⊢ d.owesAt () 0 := by
  unfold Pipeline.Dat.owesAt Pipeline.owesWithin Pipeline.Dat.bound
  rw [ho, hr]
  iintro ⟨%W, HO⟩
  iexists W
  isplitr
  · ipureintro; exact fun _ _ => Or.inl trivial
  iexact HO

theorem owes_out {cfg : Cfg sig Λ₀} {c : Dev nD} (d : Dat τ (Elt F) Unit ℕ (UR sig nD τ) ℕ cfg c) (t) (ho : d.owed t = 0) :
    (d.owesAt () t : sProp 𝕄) ⊢ iprop(∃ W, owes (c : Thread nD τ) (0 : CellTallies nD τ sig Unit) W) := by
  unfold Pipeline.Dat.owesAt Pipeline.owesWithin
  rw [ho]
  iintro ⟨%W, -, HO⟩
  iexists W
  iexact HO

variable (m : (ℓ : Loc nD τ sig) → Buf (Elt F) ℓ) (outs : Outs (F := F))

set_option backward.isDefEq.respectTransparency.types false in
/-- A kernel region between the valuation before it and the valuation after it: its arrays are read off the first and end
    at the second, and the two agree everywhere else. -/
def regOf (p : Fin 4) (lf : Pipeline.LaunchFacts (nD := nD) (τ := τ) cfgs p)
    (hbody : ∀ c, BodyObligation (pdats m outs p c) (defs₀ (F := F)) Variants.none () Set.univ)
    (Vin Vout : (c : Dev nD) → Valuation τ sig (Elt F))
    (hq : ∀ c w, (pdats m outs p c).q w = fullShare) (howed : ∀ c t, (pdats m outs p c).owed t = 0)
    (hrec : ∀ c, (pdats m outs p c).recorded 0 = Set.univ)
    (hA : ∀ c w, (pdats m outs p c).A w = Vin c (Pipeline.arrRef (Pipeline.pin (pcfgs (F := F)) adm p).spec w))
    (hF : ∀ c w, (pdats m outs p c).arrAt w (Pipeline.pin (pcfgs (F := F)) adm p).N = Vout c (Pipeline.arrRef (Pipeline.pin (pcfgs (F := F)) adm p).spec w))
    (hoff : ∀ c (b : Ref sig .tc), b ∉ Finset.univ.image (Pipeline.arrRef (Pipeline.pin (pcfgs (F := F)) adm p).spec) → Vout c b = Vin c b)
    (hin : ∀ c, (Pipeline.scopedRest (Ix := Unit) (Name := ℕ) (U := UR sig nD τ) (Lvl := ℕ) (Val := Elt F) (Pipeline.pin (pcfgs (F := F)) adm p).spec c : sProp 𝕄) ⊢ (pdats m outs p c).Φ 0)
    (hout : ∀ c, (pdats m outs p c).Φ (Fin.last (Pipeline.pin (pcfgs (F := F)) adm p).N) ⊢ (Pipeline.scopedRest (Ix := Unit) (Name := ℕ) (U := UR sig nD τ) (Lvl := ℕ) (Val := Elt F) (Pipeline.pin (pcfgs (F := F)) adm p).spec c : sProp 𝕄)) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rr (F := F) c)
  post c := iprop(StableHlo.held (c : Thread nD τ) (Pipeline.ucRefs τ sig) (Vout c) ∗ Rr (F := F) c)
  X _ := BI.emp
  Y _ := BI.emp
  Z c := iprop(Pipeline.unscopedRest (Ix := Unit) (Name := ℕ) (U := UR sig nD τ) (Lvl := ℕ) (Pipeline.pin (pcfgs (F := F)) adm p).spec c (fun b => Vin c b) ∗ ∃ r, prngReg c r)
  hentry c := by
    have hs := Pipeline.arrays_of_unscopedBufs (p := p) (pcfgs (F := F)) adm (pdats m outs) lf.win lf.arr_whole c
      ((pdats m outs p c).share_full (hq c)) (fun b => Vin c b) (hA c)
    rw [Pipeline.unscopedBufs_held] at hs
    iintro ⟨⟨Hb, Hg, Ho⟩, -, -⟩
    ihave Hs := hs $$ Hb
    icases Hs with ⟨Ha, Hu⟩
    imodintro
    isplitl [Ha]; · iexact Ha
    isplitr; · unfold Pipeline.prefHeld; rw [show (Finset.univ : Finset (Fin 0)) = ∅ from rfl, BI.bigSep_empty]; iempintro
    isplitl [Ho]; · iapply (owes_in (pdats m outs p c) (howed c 0) (hrec c)); iexact Ho
    isplitr; · iempintro
    isplitl [Hu]; · iexact Hu
    iexact Hg
  hin c := by
    refine BIBase.Entails.trans ?_ (hin c)
    iintro ⟨-, -, Hr⟩
    iexact Hr
  hout c := by
    refine BIBase.Entails.trans (hout c) ?_
    rw [Pipeline.ownSems0_none]
    iintro Hr
    isplitr; · iempintro
    isplitr; · iempintro
    iexact Hr
  hexit c := by
    have hj := Pipeline.unscopedBufs_of_arrays (p := p) (pcfgs (F := F)) adm (Ix := Unit) (Name := ℕ) (U := UR sig nD τ) (Lvl := ℕ)
      lf.win lf.arr_whole c (pdats m outs) ((pdats m outs p c).share_full (hq c))
      (fun b => Vin c b) (fun b => Vout c b) ((pdats m outs p c).arrAt · (Pipeline.pin (pcfgs (F := F)) adm p).N) (hF c) (hoff c)
    rw [Pipeline.unscopedBufs_held] at hj
    iintro ⟨Ha, Ho, -, Hu, Hg⟩
    imodintro
    isplitl [Ha Hu]
    · iapply hj; isplitl [Ha] <;> iassumption
    isplitl [Hg]; · iexact Hg
    iapply (owes_out (pdats m outs p c) _ (howed c _)); iexact Ho

theorem arr_after0 (hok : OutsOk0 m outs) (c : Dev nD) (w : Fin cfg0.W) :
    (dat0 (EV0 m) c).arrAt w cfg0.N = V2 m outs c (Pipeline.arrRef spec0 w) := by
  fin_cases w
  · exact (((dat0 (EV0 m) c).arrAt_in 0 rfl _).trans (A_eq0 (EV0 m) c 0)).trans (V2_of m outs c main_arg3 (by decide)).symm
  · exact (((dat0 (EV0 m) c).arrAt_in 1 rfl _).trans (A_eq0 (EV0 m) c 1)).trans (V2_of m outs c main_v6 (by decide)).symm
  · have h : V2 m outs c (Pipeline.arrRef spec0 2) = outs 2 main_v7 c := Function.update_self _ _ _
    exact (h.trans (hok c)).symm

theorem off_arr0 (c : Dev nD) (b : Ref sig .tc) (hb : b ∉ Finset.univ.image (Pipeline.arrRef spec0)) :
    V2 m outs c b = V1 m c b :=
  V2_of m outs c b fun h => hb (by
    obtain rfl := List.mem_singleton.mp h
    exact Finset.mem_image.mpr ⟨2, Finset.mem_univ _, rfl⟩)

def reg0 (hok : OutsOk0 m outs) : Pipeline.RegionSeg (pcfgs (F := F)) adm (pdats m outs) () defs₀ 𝒱₀ L lv 0 :=
  regOf m outs 0 launch0 (body_obligation0 (EV0 m)) (fun c => V1 m c) (fun c => V2 m outs c) (q_eq0 (EV0 m)) (owed_eq0 (EV0 m))
    (fun _ => rfl) (A_eq0 (EV0 m)) (arr_after0 m outs hok) (off_arr0 m outs) (hin0 (EV0 m)) (hout0 (EV0 m))

theorem arr_after1 (hok : OutsOk1 m outs) (c : Dev nD) (w : Fin cfg1.W) :
    (dat1 (EV1 m outs) c).arrAt w cfg1.N = V3 m outs c (Pipeline.arrRef spec1 w) := by
  fin_cases w
  · exact (((dat1 (EV1 m outs) c).arrAt_in 0 rfl _).trans (A_eq1 (EV1 m outs) c 0)).trans (V3_of m outs c main_arg3 (by decide)).symm
  · exact (((dat1 (EV1 m outs) c).arrAt_in 1 rfl _).trans (A_eq1 (EV1 m outs) c 1)).trans (V3_of m outs c main_v0 (by decide)).symm
  · exact (((dat1 (EV1 m outs) c).arrAt_in 2 rfl _).trans (A_eq1 (EV1 m outs) c 2)).trans (V3_of m outs c main_v2 (by decide)).symm
  · exact (((dat1 (EV1 m outs) c).arrAt_in 3 rfl _).trans (A_eq1 (EV1 m outs) c 3)).trans (V3_of m outs c main_v7 (by decide)).symm
  · have h : V3 m outs c (Pipeline.arrRef spec1 4) = outs 3 main_v8 c := Function.update_self _ _ _
    exact (h.trans (hok c)).symm

theorem off_arr1 (c : Dev nD) (b : Ref sig .tc) (hb : b ∉ Finset.univ.image (Pipeline.arrRef spec1)) :
    V3 m outs c b = V2 m outs c b :=
  V3_of m outs c b fun h => hb (by
    obtain rfl := List.mem_singleton.mp h
    exact Finset.mem_image.mpr ⟨4, Finset.mem_univ _, rfl⟩)

def reg1 (hok : OutsOk1 m outs) : Pipeline.RegionSeg (pcfgs (F := F)) adm (pdats m outs) () defs₀ 𝒱₀ L lv 1 :=
  regOf m outs 1 launch1 (body_obligation1 (EV1 m outs)) (fun c => V2 m outs c) (fun c => V3 m outs c) (q_eq1 (EV1 m outs)) (owed_eq1 (EV1 m outs))
    (fun _ => rfl) (A_eq1 (EV1 m outs)) (arr_after1 m outs hok) (off_arr1 m outs) (hin1 (EV1 m outs)) (hout1 (EV1 m outs))

theorem arr_after2 (hok : OutsOk2 m outs) (c : Dev nD) (w : Fin cfg2.W) :
    (dat2 (EV2 m outs) c).arrAt w cfg2.N = V9 m outs c (Pipeline.arrRef spec2 w) := by
  fin_cases w
  · exact (((dat2 (EV2 m outs) c).arrAt_in 0 rfl _).trans (A_eq2 (EV2 m outs) c 0)).trans (V9_of m outs c main_arg3 (by decide)).symm
  · exact (((dat2 (EV2 m outs) c).arrAt_in 1 rfl _).trans (A_eq2 (EV2 m outs) c 1)).trans (V9_of m outs c main_v31 (by decide)).symm
  · have h : V9 m outs c (Pipeline.arrRef spec2 2) = outs 9 main_v32 c := Function.update_self _ _ _
    exact (h.trans (hok c)).symm

theorem off_arr2 (c : Dev nD) (b : Ref sig .tc) (hb : b ∉ Finset.univ.image (Pipeline.arrRef spec2)) :
    V9 m outs c b = V8 m outs c b :=
  V9_of m outs c b fun h => hb (by
    obtain rfl := List.mem_singleton.mp h
    exact Finset.mem_image.mpr ⟨2, Finset.mem_univ _, rfl⟩)

def reg2 (hok : OutsOk2 m outs) : Pipeline.RegionSeg (pcfgs (F := F)) adm (pdats m outs) () defs₀ 𝒱₀ L lv 2 :=
  regOf m outs 2 launch2 (body_obligation2 (EV2 m outs)) (fun c => V8 m outs c) (fun c => V9 m outs c) (q_eq2 (EV2 m outs)) (owed_eq2 (EV2 m outs))
    (fun _ => rfl) (A_eq2 (EV2 m outs)) (arr_after2 m outs hok) (off_arr2 m outs) (hin2 (EV2 m outs)) (hout2 (EV2 m outs))

theorem arr_after3 (hok : OutsOk3 m outs) (c : Dev nD) (w : Fin cfg3.W) :
    (dat3 (EV3 m outs) c).arrAt w cfg3.N = V10 m outs c (Pipeline.arrRef spec3 w) := by
  fin_cases w
  · exact (((dat3 (EV3 m outs) c).arrAt_in 0 rfl _).trans (A_eq3 (EV3 m outs) c 0)).trans (V10_of m outs c main_arg3 (by decide)).symm
  · exact (((dat3 (EV3 m outs) c).arrAt_in 1 rfl _).trans (A_eq3 (EV3 m outs) c 1)).trans (V10_of m outs c main_v0 (by decide)).symm
  · exact (((dat3 (EV3 m outs) c).arrAt_in 2 rfl _).trans (A_eq3 (EV3 m outs) c 2)).trans (V10_of m outs c main_v2 (by decide)).symm
  · exact (((dat3 (EV3 m outs) c).arrAt_in 3 rfl _).trans (A_eq3 (EV3 m outs) c 3)).trans (V10_of m outs c main_v32 (by decide)).symm
  · have h : V10 m outs c (Pipeline.arrRef spec3 4) = outs 10 main_v33 c := Function.update_self _ _ _
    exact (h.trans (hok c)).symm

theorem off_arr3 (c : Dev nD) (b : Ref sig .tc) (hb : b ∉ Finset.univ.image (Pipeline.arrRef spec3)) :
    V10 m outs c b = V9 m outs c b :=
  V10_of m outs c b fun h => hb (by
    obtain rfl := List.mem_singleton.mp h
    exact Finset.mem_image.mpr ⟨4, Finset.mem_univ _, rfl⟩)

def reg3 (hok : OutsOk3 m outs) : Pipeline.RegionSeg (pcfgs (F := F)) adm (pdats m outs) () defs₀ 𝒱₀ L lv 3 :=
  regOf m outs 3 launch3 (body_obligation3 (EV3 m outs)) (fun c => V9 m outs c) (fun c => V10 m outs c) (q_eq3 (EV3 m outs)) (owed_eq3 (EV3 m outs))
    (fun _ => rfl) (A_eq3 (EV3 m outs)) (arr_after3 m outs hok) (off_arr3 m outs) (hin3 (EV3 m outs)) (hout3 (EV3 m outs))

end Cert.Kernel.Hand

end
-- ==== Proof.K.Frame.lean ====
import proofs.«108704_j53352083751414_1_alg».proof.Proof.K.Seg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Contents for the four products' output arrays; at any other buffer the launch memory's, which no valuation reads. -/
def outsOf (a7 : (c : Dev nD) → Buf (Elt F) ((c : Thread nD τ).loc main_v7)) (a8 : (c : Dev nD) → Buf (Elt F) ((c : Thread nD τ).loc main_v8))
    (a32 : (c : Dev nD) → Buf (Elt F) ((c : Thread nD τ).loc main_v32)) (a33 : (c : Dev nD) → Buf (Elt F) ((c : Thread nD τ).loc main_v33)) : Outs (F := F) :=
  fun _ r c =>
    if h : r = main_v7 then h ▸ a7 c
    else if h : r = main_v8 then h ▸ a8 c
    else if h : r = main_v32 then h ▸ a32 c
    else if h : r = main_v33 then h ▸ a33 c
    else m ((c : Thread nD τ).loc r)

section OutsOf

variable (a7 : (c : Dev nD) → Buf (Elt F) ((c : Thread nD τ).loc main_v7)) (a8 : (c : Dev nD) → Buf (Elt F) ((c : Thread nD τ).loc main_v8))
  (a32 : (c : Dev nD) → Buf (Elt F) ((c : Thread nD τ).loc main_v32)) (a33 : (c : Dev nD) → Buf (Elt F) ((c : Thread nD τ).loc main_v33))

theorem outsOf_v7 (n : ℕ) (c : Dev nD) : outsOf m a7 a8 a32 a33 n main_v7 c = a7 c := by
  unfold outsOf
  exact dif_pos rfl
theorem outsOf_v8 (n : ℕ) (c : Dev nD) : outsOf m a7 a8 a32 a33 n main_v8 c = a8 c := by
  unfold outsOf
  exact (dif_neg (show ¬ main_v8 = main_v7 by decide)).trans (dif_pos rfl)
theorem outsOf_v32 (n : ℕ) (c : Dev nD) : outsOf m a7 a8 a32 a33 n main_v32 c = a32 c := by
  unfold outsOf
  exact (dif_neg (show ¬ main_v32 = main_v7 by decide)).trans ((dif_neg (show ¬ main_v32 = main_v8 by decide)).trans (dif_pos rfl))
theorem outsOf_v33 (n : ℕ) (c : Dev nD) : outsOf m a7 a8 a32 a33 n main_v33 c = a33 c := by
  unfold outsOf
  exact (dif_neg (show ¬ main_v33 = main_v7 by decide)).trans ((dif_neg (show ¬ main_v33 = main_v8 by decide)).trans
    ((dif_neg (show ¬ main_v33 = main_v32 by decide)).trans (dif_pos rfl)))

end OutsOf

/-! The valuations read the named contents at the four output arrays only. -/
section Congr

variable {o o' : Outs (F := F)}

theorem V2_congr (h7 : ∀ c, o 2 main_v7 c = o' 2 main_v7 c) (c : Dev nD) : V2 m o c = V2 m o' c := by
  unfold V2; rw [h7 c]
theorem V3_congr (h7 : ∀ c, o 2 main_v7 c = o' 2 main_v7 c) (h8 : ∀ c, o 3 main_v8 c = o' 3 main_v8 c) (c : Dev nD) :
    V3 m o c = V3 m o' c := by
  unfold V3; rw [V2_congr m h7 c, h8 c]
theorem V8_congr (h7 : ∀ c, o 2 main_v7 c = o' 2 main_v7 c) (h8 : ∀ c, o 3 main_v8 c = o' 3 main_v8 c) (c : Dev nD) :
    V8 m o c = V8 m o' c := by
  unfold V8 V7 V6 V5 V4; rw [V3_congr m h7 h8 c]
theorem V9_congr (h7 : ∀ c, o 2 main_v7 c = o' 2 main_v7 c) (h8 : ∀ c, o 3 main_v8 c = o' 3 main_v8 c)
    (h32 : ∀ c, o 9 main_v32 c = o' 9 main_v32 c) (c : Dev nD) : V9 m o c = V9 m o' c := by
  unfold V9; rw [V8_congr m h7 h8 c, h32 c]

theorem EV1_congr (h7 : ∀ c, o 2 main_v7 c = o' 2 main_v7 c) : EV1 m o = EV1 m o' :=
  funext fun c => funext fun b => congrFun (V2_congr m h7 c) _
theorem EV2_congr (h7 : ∀ c, o 2 main_v7 c = o' 2 main_v7 c) (h8 : ∀ c, o 3 main_v8 c = o' 3 main_v8 c) : EV2 m o = EV2 m o' :=
  funext fun c => funext fun b => congrFun (V8_congr m h7 h8 c) _
theorem EV3_congr (h7 : ∀ c, o 2 main_v7 c = o' 2 main_v7 c) (h8 : ∀ c, o 3 main_v8 c = o' 3 main_v8 c)
    (h32 : ∀ c, o 9 main_v32 c = o' 9 main_v32 c) : EV3 m o = EV3 m o' :=
  funext fun c => funext fun b => congrFun (V9_congr m h7 h8 h32 c) _

end Congr

/-- Each product's output array is named from the valuation the products before it make, so none refers to itself. -/
def o7 (c : Dev nD) : Buf (Elt F) ((c : Thread nD τ).loc main_v7) := (dat0 (EV0 m) c).arrAt 2 cfg0.N
def outsA : Outs (F := F) := outsOf m (o7 m) (fun c => m _) (fun c => m _) (fun c => m _)
def o8 (c : Dev nD) : Buf (Elt F) ((c : Thread nD τ).loc main_v8) := (dat1 (EV1 m (outsA m)) c).arrAt 4 cfg1.N
def outsB : Outs (F := F) := outsOf m (o7 m) (o8 m) (fun c => m _) (fun c => m _)
def o32 (c : Dev nD) : Buf (Elt F) ((c : Thread nD τ).loc main_v32) := (dat2 (EV2 m (outsB m)) c).arrAt 2 cfg2.N
def outsC : Outs (F := F) := outsOf m (o7 m) (o8 m) (o32 m) (fun c => m _)
def o33 (c : Dev nD) : Buf (Elt F) ((c : Thread nD τ).loc main_v33) := (dat3 (EV3 m (outsC m)) c).arrAt 4 cfg3.N
def outsK : Outs (F := F) := outsOf m (o7 m) (o8 m) (o32 m) (o33 m)

theorem outsA_K7 (c : Dev nD) : outsA m 2 main_v7 c = outsK m 2 main_v7 c := (outsOf_v7 m _ _ _ _ 2 c).trans (outsOf_v7 m _ _ _ _ 2 c).symm
theorem outsB_K7 (c : Dev nD) : outsB m 2 main_v7 c = outsK m 2 main_v7 c := (outsOf_v7 m _ _ _ _ 2 c).trans (outsOf_v7 m _ _ _ _ 2 c).symm
theorem outsB_K8 (c : Dev nD) : outsB m 3 main_v8 c = outsK m 3 main_v8 c := (outsOf_v8 m _ _ _ _ 3 c).trans (outsOf_v8 m _ _ _ _ 3 c).symm
theorem outsC_K7 (c : Dev nD) : outsC m 2 main_v7 c = outsK m 2 main_v7 c := (outsOf_v7 m _ _ _ _ 2 c).trans (outsOf_v7 m _ _ _ _ 2 c).symm
theorem outsC_K8 (c : Dev nD) : outsC m 3 main_v8 c = outsK m 3 main_v8 c := (outsOf_v8 m _ _ _ _ 3 c).trans (outsOf_v8 m _ _ _ _ 3 c).symm
theorem outsC_K32 (c : Dev nD) : outsC m 9 main_v32 c = outsK m 9 main_v32 c := (outsOf_v32 m _ _ _ _ 9 c).trans (outsOf_v32 m _ _ _ _ 9 c).symm

/-- Each region leaves in its output array what its own proof data compute at the valuation the named contents make. -/
theorem ok0 : OutsOk0 m (outsK m) := fun c => outsOf_v7 m _ _ _ _ 2 c
theorem ok1 : OutsOk1 m (outsK m) := fun c =>
  (outsOf_v8 m _ _ _ _ 3 c).trans (congrArg (fun V => (dat1 V c).arrAt 4 cfg1.N) (EV1_congr m (outsA_K7 m)))
theorem ok2 : OutsOk2 m (outsK m) := fun c =>
  (outsOf_v32 m _ _ _ _ 9 c).trans (congrArg (fun V => (dat2 V c).arrAt 2 cfg2.N) (EV2_congr m (outsB_K7 m) (outsB_K8 m)))
theorem ok3 : OutsOk3 m (outsK m) := fun c =>
  (outsOf_v33 m _ _ _ _ 10 c).trans (congrArg (fun V => (dat3 V c).arrAt 4 cfg3.N) (EV3_congr m (outsC_K7 m) (outsC_K8 m) (outsC_K32 m)))

theorem Rr_owes (c : Dev nD) :
    Rr (F := F) c ⊢ (iprop(∃ W, owes (c : Thread nD τ) (0 : CellTallies nD τ sig Unit) W) : sProp 𝕄) := by
  iintro ⟨-, H⟩
  iexact H

theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [ownU_emb₁, BI.bigSep_emp_const]
  iintro Hu
  imodintro
  isplitl [Hu]; · iexact Hu
  iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main ends with each of its buffers at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = V11 m (outsK m) c b) := by
  refine Pipeline.θ_run_regions_kit_dev (pcfgs (F := F)) adm (pdats m (outsK m)) () cellOf_inj emb₁ defs₀ 𝒱₀ L lv m ρ main
    (segs m (outsK m) 𝒱₀ L lv (fun _ c => Rr (F := F) c) () (pdats m (outsK m))
      (reg0 m (outsK m) (ok0 m)) (reg1 m (outsK m) (ok1 m)) (reg2 m (outsK m) (ok2 m)) (reg3 m (outsK m) (ok3 m)))
    (fun c Q => ?hmain) (fun c => ?hnd) 0 (fun _ _ => rfl) (fun _ => BI.emp)
    (initOf (Pipeline.cells cfgs cellOf_inj) (Pipeline.launchToks cfgs cellOf_inj)) launch_own
    (T₀ := fun c => iprop(StableHlo.held (c : Thread nD τ) (Pipeline.ucRefs τ sig) (V0 m c) ∗ Rr (F := F) c))
    (Tₙ := fun c => StableHlo.held (c : Thread nD τ) (Pipeline.ucRefs τ sig) (V11 m (outsK m) c))
    (hch := fun c => ⟨.rfl, .rfl, .rfl, .rfl, .rfl, .rfl, .rfl, .rfl, .rfl, .rfl, .rfl,
      sep_mono .rfl (Rr_owes c)⟩)
    (hinit := ?hinit)
    (QY := fun c s => ∀ b ∈ Pipeline.ucRefs τ sig, s.mem ((c : Thread nD τ).1, b) = V11 m (outsK m) c b)
    (hfin := fun c s' => ?hfin) (hQ := fun _ h => h)
  case hmain =>
    rw [main_chain c, Pipeline.Seg.run_eq_chain]
    exact .rfl
  case hnd =>
    simp only [segs, Pipeline.Seg.pipes_host, Pipeline.Seg.pipes_region, Pipeline.Seg.pipes_nil]; decide
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hb, -, HO, -, Hp, -⟩, -⟩
    imodintro
    isplitl [Hb]; · iexact Hb
    isplitl [Hp]; · iexists _; iexact Hp
    iexists ∅; iexact HO
  case hfin =>
    unfold StableHlo.held
    iintro ⟨Hh, HSI⟩
    imodintro
    iapply (pointsTo_read_all (Pipeline.ucRefs τ sig) (fun b => ((c : Thread nD τ).1, b)) (V11 m (outsK m) c) s')
    isplitl [Hh] <;> iassumption

/-- Read at the result and at the nine arguments, which no item writes. -/
theorem run_val (ρ : Dev nD → PrngReg) : θ_run defs (onTc (τ := τ) (main (F := F))) ⟨m, fun _ => 0, ρ⟩ (fun r => ∀ c : Dev nD,
      r.2.mem ((c.tc : Thread nD τ).loc main_v40) = V11 m (outsK m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v40 (by decide)),
      (h c _ (mem_uc main_arg0 (by decide))).trans (V11_main_arg0 m (outsK m) c),
      (h c _ (mem_uc main_arg1 (by decide))).trans (V11_main_arg1 m (outsK m) c),
      (h c _ (mem_uc main_arg2 (by decide))).trans (V11_main_arg2 m (outsK m) c),
      (h c _ (mem_uc main_arg3 (by decide))).trans (V11_main_arg3 m (outsK m) c),
      (h c _ (mem_uc main_arg4 (by decide))).trans (V11_main_arg4 m (outsK m) c),
      (h c _ (mem_uc main_arg5 (by decide))).trans (V11_main_arg5 m (outsK m) c),
      (h c _ (mem_uc main_arg6 (by decide))).trans (V11_main_arg6 m (outsK m) c),
      (h c _ (mem_uc main_arg7 (by decide))).trans (V11_main_arg7 m (outsK m) c),
      (h c _ (mem_uc main_arg8 (by decide))).trans (V11_main_arg8 m (outsK m) c)⟩) (run_all m ρ)

end Cert.Kernel.Hand

end
-- ==== Proof.KI.Base.lean ====
import proofs.«108704_j53352083751414_1_alg».proof.Proof.Gen.KernelIdeal.Launch
import proofs.«108704_j53352083751414_1_alg».proof.Proof.Gen.KernelIdeal.Points
import proofs.«108704_j53352083751414_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents a region is entered from: every buffer of a core, by reference. -/
abbrev EntryVal (F : FTy → Type) : Type := (c : Dev nD) → (b : Ref sig .tc) → Buf (Elt F) ((c : Thread nD τ).loc b)

end Cert.KernelIdeal.Hand

end
-- ==== Proof.KI.R0Run.lean ====
import proofs.«108704_j53352083751414_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1

/-- The accumulator is reset at the first of every four points of the row-major walk: decided over the grid. -/
theorem hcond0 : ∀ t : Fin cfg0.N, cond0 (grid0.coords t) ↔ t.val % 4 = 0 :=
  (by decide +kernel : ∀ t : Fin grid0.N, cond0 (grid0.coords t) ↔ t.val % 4 = 0)

theorem zeroOff0 : (![0, 0] : Fin 2 → Nat) = fun _ => 0 := by funext a; fin_cases a <;> rfl

variable (c : Dev nD) (i : grid0.Coords)
  (arg2 : Memref sig .tc .vmem S2048x1024 .f32) (harg2 : arg2.IsWhole) (arg3 : Memref sig .tc .vmem S2048x64 .f32) (harg3 : arg3.IsWhole)
  (arg4 : Memref sig .tc .vmem S1024x64 .f32) (harg4 : arg4.IsWhole) (arg5 : Memref sig .tc .vmem S1024x64 .f32) (harg5 : arg5.IsWhole)
  (x0 : Vec F S2048x1024 .f32) (x1 : Vec F S2048x64 .f32)

/-- What the body leaves when its accumulator started the point at `a`: the inputs untouched, the accumulator at the
    block product added to `a`, the output's buffer a copy of it. -/
abbrev left0 (a : Vec F S1024x64 .f32) : sProp 𝕄 :=
  iprop(owns (c : Thread nD τ) arg2 fullShare x0 ∗ owns (c : Thread nD τ) arg3 fullShare x1
    ∗ owns (c : Thread nD τ) arg4 fullShare (k0_pay2 x0 x1 a) ∗ owns (c : Thread nD τ) arg5 fullShare (k0_pay2 x0 x1 a))

/-- Where the accumulator is reset it starts the point at the zero block, whatever it held. -/
theorem runA0 (hc : cond0 i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (left0 c arg2 arg3 arg4 arg5 x0 x1 k0_pay1 -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold left0 owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x64.size (by sl_kernel_rfl))).trans ?_
    sl_unfold_words
    rw [View.canon_unit_zero (S := S1024x64) zeroOff0, View.readCov_cons_toLoadRect, View.readCov_cons_toLoadRect]
    simp only [View.readAt_eq_ld, harg2.read_unread, harg3.read_unread, harg5.read_unread, View.ld_unit_zero (S := S2048x1024) zeroOff0, View.ld_unit_zero (S := S2048x64) zeroOff0, View.ld_unit_zero (S := S1024x64) zeroOff0]
  iexists _; isplitr; swap; · iexact HS0
  ipureintro
  refine (View.read_writes_eq_canon _ _ _ (View.cover_of_tiledL _ S1024x64.size (by sl_kernel_rfl))).trans ?_
  sl_unfold_words
  rw [View.canon_cons_unit_zero (S := S1024x64) zeroOff0, View.readCov_cons_toLoadRect]
  simp only [View.readAt_eq_ld, harg2.read_unread, harg3.read_unread, harg5.read_unread, View.ld_unit_zero (S := S2048x1024) zeroOff0, View.ld_unit_zero (S := S2048x64) zeroOff0, View.ld_unit_zero (S := S1024x64) zeroOff0]

/-- Elsewhere it goes on from what it holds. -/
theorem runB0 (hc : ¬cond0 i) (xs0 : Vec F S1024x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs0
        ∗ (left0 c arg2 arg3 arg4 arg5 x0 x1 xs0 -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold left0 owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x64.size (by sl_kernel_rfl))).trans ?_
    sl_unfold_words
    rw [View.canon_unit_zero (S := S1024x64) zeroOff0, View.readCov_cons_toLoadRect]
    simp only [View.readAt_eq_ld, harg2.read_unread, harg3.read_unread, harg5.read_unread, View.ld_unit_zero (S := S2048x1024) zeroOff0, View.ld_unit_zero (S := S2048x64) zeroOff0, View.ld_unit_zero (S := S1024x64) zeroOff0]
  iexists _; isplitr; swap; · iexact HS0
  ipureintro
  refine (View.read_writes_eq_canon _ _ _ (View.cover_of_tiledL _ S1024x64.size (by sl_kernel_rfl))).trans ?_
  sl_unfold_words
  rw [View.canon_unit_zero (S := S1024x64) zeroOff0]
  simp only [View.readAt_eq_ld, harg2.read_unread, harg3.read_unread, harg5.read_unread, View.ld_unit_zero (S := S2048x1024) zeroOff0, View.ld_unit_zero (S := S2048x64) zeroOff0, View.ld_unit_zero (S := S1024x64) zeroOff0]

end Cert.KernelIdeal.Hand

end
-- ==== Proof.KI.R0Dat.lean ====
import proofs.«108704_j53352083751414_1_alg».proof.Proof.KI.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk0 (V : EntryVal F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)

/-- The accumulator after the body at position `n`: the point's block product added to the zero block at the first of
    every four positions, and to what position `n - 1` left at the others. -/
def accAt0 (V : EntryVal F) (c : Dev nD) : (n : ℕ) → n < cfg0.N → Vec F S1024x64 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 4 = 0 then k0_pay1 else accAt0 V c n (Nat.lt_of_succ_lt hn))

theorem accAt0_reset (V : EntryVal F) (c : Dev nD) (t : Fin cfg0.N) (h0 : t.val % 4 = 0) :
    accAt0 V c t.val t.isLt = k0_pay2 (iblk0 V c 0 t) (iblk0 V c 1 t) k0_pay1 := by
  obtain ⟨n, hn⟩ := t
  cases n with
  | zero => rfl
  | succ n => exact congrArg (k0_pay2 _ _) (if_pos h0)
theorem accAt0_acc (V : EntryVal F) (c : Dev nD) (t : Fin cfg0.N) (h0 : ¬t.val % 4 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

theorem scopedRestOwns0 (c : Dev nD) :
    (Pipeline.scopedRest (Ix := Unit) (Name := ℕ) (U := UR sig nD τ) (Lvl := ℕ) (Val := Elt F) spec0 c : sProp 𝕄)
      = iprop(iprop(∃ d, owns (c : Thread nD τ) (Memref.whole cc0_scratch0) fullShare d) ∗ Pipeline.scopedRestBut (Ix := Unit) (Name := ℕ) (U := UR sig nD τ) (Lvl := ℕ) (Val := Elt F) spec0 c [cc0_scratch0]) := by
  rw [scopedRest0_split]; simp only [owns_whole]; try rfl

/-- The invariant before position `n`: the accumulator holds what position `n - 1` left (anything before the first). -/
def Phi0 (V : EntryVal F) (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) (Memref.whole cc0_scratch0) fullShare (accAt0 V c n hn) ∗ Pipeline.scopedRestBut (Ix := Unit) (Name := ℕ) (U := UR sig nD τ) (Lvl := ℕ) (Val := Elt F) spec0 c [cc0_scratch0])

theorem Phi0_pos (V : EntryVal F) (c : Dev nD) (n : ℕ) (h : n ≤ cfg0.N) (hz : n ≠ 0) :
    Phi0 V c n h = iprop(owns (c : Thread nD τ) (Memref.whole cc0_scratch0) fullShare (accAt0 V c (n - 1) (by omega)) ∗ Pipeline.scopedRestBut (Ix := Unit) (Name := ℕ) (U := UR sig nD τ) (Lvl := ℕ) (Val := Elt F) spec0 c [cc0_scratch0]) := by
  cases n with
  | zero => exact absurd rfl hz
  | succ n => rfl

/-- At every position the invariant holds the accumulator at some contents. -/
theorem Phi0_some (V : EntryVal F) (c : Dev nD) (n : ℕ) (h : n ≤ cfg0.N) :
    Phi0 V c n h ⊢ iprop(iprop(∃ d, owns (c : Thread nD τ) (Memref.whole cc0_scratch0) fullShare d) ∗ Pipeline.scopedRestBut (Ix := Unit) (Name := ℕ) (U := UR sig nD τ) (Lvl := ℕ) (Val := Elt F) spec0 c [cc0_scratch0]) := by
  by_cases hz : n = 0
  · subst hz; rw [← scopedRestOwns0]; exact .rfl
  rw [Phi0_pos V c n h hz]
  iintro ⟨HS0, HR⟩
  isplitl [HS0]; · iexists _; iexact HS0
  iexact HR

def dat0 (V : EntryVal F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q _ := fullShare
  owed _ := 0

theorem A_eq0 (V : EntryVal F) (c : Dev nD) (w : Fin cfg0.W) : (dat0 V c).A w = V c (Pipeline.arrRef spec0 w) := rfl
theorem q_eq0 (V : EntryVal F) (c : Dev nD) (w : Fin cfg0.W) : (dat0 V c).q w = fullShare := rfl
theorem owed_eq0 (V : EntryVal F) (c : Dev nD) (t) : (dat0 V c).owed t = 0 := rfl
theorem after0_2 (V : EntryVal F) (c : Dev nD) (t : Fin cfg0.N) : (dat0 V c).after 2 t = accAt0 V c t.val t.isLt := rfl

theorem before0_0 (V : EntryVal F) (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (V : EntryVal F) (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem hin0 (V : EntryVal F) (c : Dev nD) : (Pipeline.scopedRest (Ix := Unit) (Name := ℕ) (U := UR sig nD τ) (Lvl := ℕ) (Val := Elt F) spec0 c : sProp 𝕄) ⊢ (dat0 V c).Φ 0 := .rfl
theorem hout0 (V : EntryVal F) (c : Dev nD) : (dat0 V c).Φ (Fin.last cfg0.N) ⊢ (Pipeline.scopedRest (Ix := Unit) (Name := ℕ) (U := UR sig nD τ) (Lvl := ℕ) (Val := Elt F) spec0 c : sProp 𝕄) := by
  rw [scopedRestOwns0]; exact Phi0_some V c (Fin.last cfg0.N).val _

/-- The body at any point takes the accumulator from the invariant and gives it back at this point's contents, the output's
    buffer a copy of it; the inputs' buffers are left holding their blocks. -/
theorem body_obligation0 (V : EntryVal F) (c : Dev nD) : BodyObligation (dat0 (F := F) V c) (defs₀ (F := F)) Variants.none () Set.univ := fun t => by
  rw [bigSep_W0, bigSep_W0]
  show iprop(Phi0 V c t.castSucc.val _ ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d)))
    ⊢ wp frame _ Set.univ (bodyAt0 t) fun _ => iprop(iprop(owns (c : Thread nD τ) (Memref.whole cc0_scratch0) fullShare (accAt0 V c t.val t.isLt) ∗ Pipeline.scopedRestBut (Ix := Unit) (Name := ℕ) (U := UR sig nD τ) (Lvl := ℕ) (Val := Elt F) spec0 c [cc0_scratch0])
      ∗ (dat0 V c).owesAt () t.castSucc
      ∗ owns (c : Thread nD τ) (ms0_0 t) fullShare (iblk0 V c 0 t) ∗ owns (c : Thread nD τ) (ms0_1 t) fullShare (iblk0 V c 1 t)
      ∗ owns (c : Thread nD τ) (ms0_2 t) fullShare (accAt0 V c t.val t.isLt))
  simp only [before0_0, before0_1, Fin.coe_castSucc]
  by_cases h0 : t.val % 4 = 0
  · rw [accAt0_reset V c t h0]
    iintro ⟨HΦ, Ho, ⟨%d0, H0⟩, ⟨%d1, H1⟩, ⟨%d2, H2⟩⟩
    ihave Hs := (Phi0_some V c _ _) $$ HΦ
    icases Hs with ⟨HS0, HR⟩
    iapply (runA0 c (grid0.coords t) (ms0_0 t) (hs0_0 t) (ms0_1 t) (hs0_1 t) (ms0_2 t) (hs0_2 t) (Memref.whole cc0_scratch0) (Memref.isWhole_whole _) (iblk0 V c 0 t) (iblk0 V c 1 t) ((hcond0 t).mpr h0) Set.univ _)
    iframe H0 H1 HS0
    isplitl [H2]; · iexists _; iexact H2
    iintro ⟨H0, H1, H2, HS0⟩
    iframe
  · rw [accAt0_acc V c t h0, Phi0_pos V c _ _ fun h => h0 (by rw [h])]
    iintro ⟨⟨HS0, HR⟩, Ho, ⟨%d0, H0⟩, ⟨%d1, H1⟩, ⟨%d2, H2⟩⟩
    iapply (runB0 c (grid0.coords t) (ms0_0 t) (hs0_0 t) (ms0_1 t) (hs0_1 t) (ms0_2 t) (hs0_2 t) (Memref.whole cc0_scratch0) (Memref.isWhole_whole _) (iblk0 V c 0 t) (iblk0 V c 1 t) (fun h => h0 ((hcond0 t).mp h)) _ Set.univ _)
    iframe H0 H1 HS0
    isplitl [H2]; · iexists _; iexact H2
    iintro ⟨H0, H1, H2, HS0⟩
    iframe

end Cert.KernelIdeal.Hand

end
-- ==== Proof.KI.R1Run.lean ====
import proofs.«108704_j53352083751414_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid1.Coords) : Prop := (Scalar.cmpi .ne (Scalar.extui (Scalar.cmpi .eq (BitVec.ofNat 32 (i 1).val) 0#32)) 0#32) = 1#1

/-- The accumulator is reset at the first of every four points of the row-major walk: decided over the grid. -/
theorem hcond1 : ∀ t : Fin cfg1.N, cond1 (grid1.coords t) ↔ t.val % 4 = 0 :=
  (by decide +kernel : ∀ t : Fin grid1.N, cond1 (grid1.coords t) ↔ t.val % 4 = 0)

theorem zeroOff1 : (![0, 0] : Fin 2 → Nat) = fun _ => 0 := by funext a; fin_cases a <;> rfl

variable (c : Dev nD) (i : grid1.Coords)
  (arg2 : Memref sig .tc .vmem S2048x1024 .f32) (harg2 : arg2.IsWhole) (arg3 : Memref sig .tc .vmem S2048x1 .f32) (harg3 : arg3.IsWhole)
  (arg4 : Memref sig .tc .vmem S1x1024 .f32) (harg4 : arg4.IsWhole) (arg5 : Memref sig .tc .vmem S1024x64 .f32) (harg5 : arg5.IsWhole)
  (arg6 : Memref sig .tc .vmem S2048x64 .f32) (harg6 : arg6.IsWhole) (arg7 : Memref sig .tc .vmem S2048x64 .f32) (harg7 : arg7.IsWhole)
  (x0 : Vec F S2048x1024 .f32) (x1 : Vec F S2048x1 .f32) (x2 : Vec F S1x1024 .f32) (x3 : Vec F S1024x64 .f32)

/-- What the body leaves when its accumulator started the point at `a`: the inputs untouched, the accumulator at the
    block product added to `a`, the output's buffer a copy of it. -/
abbrev left1 (a : Vec F S2048x64 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare (k1_pay2 x0 x1 x2 x3 a) ∗ owns (c : Thread nD τ) arg7 fullShare (k1_pay2 x0 x1 x2 x3 a))

/-- Where the accumulator is reset it starts the point at the zero block, whatever it held. -/
theorem runA1 (hc : cond1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (left1 c arg2 arg3 arg4 arg5 arg6 arg7 x0 x1 x2 x3 k1_pay1 -∗ K ⟨⟩))
      ⊢ wp frame (wpE (defs₀ (F := F)) Variants.none c none) E (cc1__matmulA_kernel i arg2 harg2 arg3 harg3 arg4 harg4 arg5 harg5 arg6 harg6 arg7 harg7) K := by
  simp only [cc1__matmulA_kernel_eq_skeleton]; unfold cc1__matmulA_kernel_skel
  unfold left1 owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x64.size (by sl_kernel_rfl))).trans ?_
    sl_unfold_words
    rw [View.canon_unit_zero (S := S2048x64) zeroOff1, View.readCov_cons_toLoadRect, View.readCov_unit_zero (S := S2048x64) _ zeroOff1]
    simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]
  iexists _; isplitr; swap; · iexact HS0
  ipureintro
  refine (View.read_writes_eq_canon _ _ _ (View.cover_of_tiledL _ S2048x64.size (by sl_kernel_rfl))).trans ?_
  sl_unfold_words
  rw [View.canon_cons_unit_zero (S := S2048x64) zeroOff1, View.readCov_unit_zero (S := S2048x64) _ zeroOff1]
  simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]

/-- Elsewhere it goes on from what it holds. -/
theorem runB1 (hc : ¬cond1 i) (xs0 : Vec F S2048x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs0
        ∗ (left1 c arg2 arg3 arg4 arg5 arg6 arg7 x0 x1 x2 x3 xs0 -∗ K ⟨⟩))
      ⊢ wp frame (wpE (defs₀ (F := F)) Variants.none c none) E (cc1__matmulA_kernel i arg2 harg2 arg3 harg3 arg4 harg4 arg5 harg5 arg6 harg6 arg7 harg7) K := by
  simp only [cc1__matmulA_kernel_eq_skeleton]; unfold cc1__matmulA_kernel_skel
  unfold left1 owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x64.size (by sl_kernel_rfl))).trans ?_
    sl_unfold_words
    rw [View.canon_unit_zero (S := S2048x64) zeroOff1, View.readCov_unit_zero (S := S2048x64) _ zeroOff1]
    simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]
  iexists _; isplitr; swap; · iexact HS0
  ipureintro
  refine (View.read_writes_eq_canon _ _ _ (View.cover_of_tiledL _ S2048x64.size (by sl_kernel_rfl))).trans ?_
  sl_unfold_words
  rw [View.canon_unit_zero (S := S2048x64) zeroOff1]
  simp only [View.readAt_eq_ld, harg2.read_unread, harg3.read_unread, harg4.read_unread, harg5.read_unread, harg7.read_unread, View.ld_unit_zero (S := S2048x1024) zeroOff1, View.ld_unit_zero (S := S2048x1) zeroOff1, View.ld_unit_zero (S := S1x1024) zeroOff1, View.ld_unit_zero (S := S1024x64) zeroOff1, View.ld_unit_zero (S := S2048x64) zeroOff1]

end Cert.KernelIdeal.Hand

end
-- ==== Proof.KI.R1Dat.lean ====
import proofs.«108704_j53352083751414_1_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk1 (V : EntryVal F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)

/-- The accumulator after the body at position `n`: the point's block product added to the zero block at the first of
    every four positions, and to what position `n - 1` left at the others. -/
def accAt1 (V : EntryVal F) (c : Dev nD) : (n : ℕ) → n < cfg1.N → Vec F S2048x64 .f32
  | 0, hn => k1_pay2 (iblk1 V c 0 ⟨0, hn⟩) (iblk1 V c 1 ⟨0, hn⟩) (iblk1 V c 2 ⟨0, hn⟩) (iblk1 V c 3 ⟨0, hn⟩) k1_pay1
  | n + 1, hn => k1_pay2 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay1 else accAt1 V c n (Nat.lt_of_succ_lt hn))

theorem accAt1_reset (V : EntryVal F) (c : Dev nD) (t : Fin cfg1.N) (h0 : t.val % 4 = 0) :
    accAt1 V c t.val t.isLt = k1_pay2 (iblk1 V c 0 t) (iblk1 V c 1 t) (iblk1 V c 2 t) (iblk1 V c 3 t) k1_pay1 := by
  obtain ⟨n, hn⟩ := t
  cases n with
  | zero => rfl
  | succ n => exact congrArg (k1_pay2 _ _ _ _) (if_pos h0)
theorem accAt1_acc (V : EntryVal F) (c : Dev nD) (t : Fin cfg1.N) (h0 : ¬t.val % 4 = 0) :
    accAt1 V c t.val t.isLt = k1_pay2 (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd (Nat.zero_mod _) h0
  | succ n => exact congrArg (k1_pay2 _ _ _ _) (if_neg h0)

theorem scopedRestOwns1 (c : Dev nD) :
    (Pipeline.scopedRest (Ix := Unit) (Name := ℕ) (U := UR sig nD τ) (Lvl := ℕ) (Val := Elt F) spec1 c : sProp 𝕄)
      = iprop(iprop(∃ d, owns (c : Thread nD τ) (Memref.whole cc1_scratch0) fullShare d) ∗ Pipeline.scopedRestBut (Ix := Unit) (Name := ℕ) (U := UR sig nD τ) (Lvl := ℕ) (Val := Elt F) spec1 c [cc1_scratch0]) := by
  rw [scopedRest1_split]; simp only [owns_whole]; try rfl

/-- The invariant before position `n`: the accumulator holds what position `n - 1` left (anything before the first). -/
def Phi1 (V : EntryVal F) (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) (Memref.whole cc1_scratch0) fullShare (accAt1 V c n hn) ∗ Pipeline.scopedRestBut (Ix := Unit) (Name := ℕ) (U := UR sig nD τ) (Lvl := ℕ) (Val := Elt F) spec1 c [cc1_scratch0])

theorem Phi1_pos (V : EntryVal F) (c : Dev nD) (n : ℕ) (h : n ≤ cfg1.N) (hz : n ≠ 0) :
    Phi1 V c n h = iprop(owns (c : Thread nD τ) (Memref.whole cc1_scratch0) fullShare (accAt1 V c (n - 1) (by omega)) ∗ Pipeline.scopedRestBut (Ix := Unit) (Name := ℕ) (U := UR sig nD τ) (Lvl := ℕ) (Val := Elt F) spec1 c [cc1_scratch0]) := by
  cases n with
  | zero => exact absurd rfl hz
  | succ n => rfl

/-- At every position the invariant holds the accumulator at some contents. -/
theorem Phi1_some (V : EntryVal F) (c : Dev nD) (n : ℕ) (h : n ≤ cfg1.N) :
    Phi1 V c n h ⊢ iprop(iprop(∃ d, owns (c : Thread nD τ) (Memref.whole cc1_scratch0) fullShare d) ∗ Pipeline.scopedRestBut (Ix := Unit) (Name := ℕ) (U := UR sig nD τ) (Lvl := ℕ) (Val := Elt F) spec1 c [cc1_scratch0]) := by
  by_cases hz : n = 0
  · subst hz; rw [← scopedRestOwns1]; exact .rfl
  rw [Phi1_pos V c n h hz]
  iintro ⟨HS0, HR⟩
  isplitl [HS0]; · iexists _; iexact HS0
  iexact HR

def dat1 (V : EntryVal F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt1 V c t.val t.isLt
  Φ t := Phi1 V c t.val (Nat.le_of_lt_succ t.isLt)
  q _ := fullShare
  owed _ := 0

theorem A_eq1 (V : EntryVal F) (c : Dev nD) (w : Fin cfg1.W) : (dat1 V c).A w = V c (Pipeline.arrRef spec1 w) := rfl
theorem q_eq1 (V : EntryVal F) (c : Dev nD) (w : Fin cfg1.W) : (dat1 V c).q w = fullShare := rfl
theorem owed_eq1 (V : EntryVal F) (c : Dev nD) (t) : (dat1 V c).owed t = 0 := rfl
theorem after1_4 (V : EntryVal F) (c : Dev nD) (t : Fin cfg1.N) : (dat1 V c).after 4 t = accAt1 V c t.val t.isLt := rfl

theorem before1_0 (V : EntryVal F) (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (V : EntryVal F) (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (V : EntryVal F) (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (V : EntryVal F) (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem hin1 (V : EntryVal F) (c : Dev nD) : (Pipeline.scopedRest (Ix := Unit) (Name := ℕ) (U := UR sig nD τ) (Lvl := ℕ) (Val := Elt F) spec1 c : sProp 𝕄) ⊢ (dat1 V c).Φ 0 := .rfl
theorem hout1 (V : EntryVal F) (c : Dev nD) : (dat1 V c).Φ (Fin.last cfg1.N) ⊢ (Pipeline.scopedRest (Ix := Unit) (Name := ℕ) (U := UR sig nD τ) (Lvl := ℕ) (Val := Elt F) spec1 c : sProp 𝕄) := by
  rw [scopedRestOwns1]; exact Phi1_some V c (Fin.last cfg1.N).val _

/-- The body at any point takes the accumulator from the invariant and gives it back at this point's contents, the output's
    buffer a copy of it; the inputs' buffers are left holding their blocks. -/
theorem body_obligation1 (V : EntryVal F) (c : Dev nD) : BodyObligation (dat1 (F := F) V c) (defs₀ (F := F)) Variants.none () Set.univ := fun t => by
  rw [bigSep_W1, bigSep_W1]
  show iprop(Phi1 V c t.castSucc.val _ ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame _ Set.univ (bodyAt1 t) fun _ => iprop(iprop(owns (c : Thread nD τ) (Memref.whole cc1_scratch0) fullShare (accAt1 V c t.val t.isLt) ∗ Pipeline.scopedRestBut (Ix := Unit) (Name := ℕ) (U := UR sig nD τ) (Lvl := ℕ) (Val := Elt F) spec1 c [cc1_scratch0])
      ∗ (dat1 V c).owesAt () t.castSucc
      ∗ owns (c : Thread nD τ) (ms1_0 t) fullShare (iblk1 V c 0 t) ∗ owns (c : Thread nD τ) (ms1_1 t) fullShare (iblk1 V c 1 t)
      ∗ owns (c : Thread nD τ) (ms1_2 t) fullShare (iblk1 V c 2 t) ∗ owns (c : Thread nD τ) (ms1_3 t) fullShare (iblk1 V c 3 t)
      ∗ owns (c : Thread nD τ) (ms1_4 t) fullShare (accAt1 V c t.val t.isLt))
  simp only [before1_0, before1_1, before1_2, before1_3, Fin.coe_castSucc]
  by_cases h0 : t.val % 4 = 0
  · rw [accAt1_reset V c t h0]
    iintro ⟨HΦ, Ho, ⟨%d0, H0⟩, ⟨%d1, H1⟩, ⟨%d2, H2⟩, ⟨%d3, H3⟩, ⟨%d4, H4⟩⟩
    ihave Hs := (Phi1_some V c _ _) $$ HΦ
    icases Hs with ⟨HS0, HR⟩
    iapply (runA1 c (grid1.coords t) (ms1_0 t) (hs1_0 t) (ms1_1 t) (hs1_1 t) (ms1_2 t) (hs1_2 t) (ms1_3 t) (hs1_3 t) (ms1_4 t) (hs1_4 t) (Memref.whole cc1_scratch0) (Memref.isWhole_whole _) (iblk1 V c 0 t) (iblk1 V c 1 t) (iblk1 V c 2 t) (iblk1 V c 3 t) ((hcond1 t).mpr h0) Set.univ _)
    iframe H0 H1 H2 H3 HS0
    isplitl [H4]; · iexists _; iexact H4
    iintro ⟨H0, H1, H2, H3, H4, HS0⟩
    iframe
  · rw [accAt1_acc V c t h0, Phi1_pos V c _ _ fun h => h0 (by rw [h])]
    iintro ⟨⟨HS0, HR⟩, Ho, ⟨%d0, H0⟩, ⟨%d1, H1⟩, ⟨%d2, H2⟩, ⟨%d3, H3⟩, ⟨%d4, H4⟩⟩
    iapply (runB1 c (grid1.coords t) (ms1_0 t) (hs1_0 t) (ms1_1 t) (hs1_1 t) (ms1_2 t) (hs1_2 t) (ms1_3 t) (hs1_3 t) (ms1_4 t) (hs1_4 t) (Memref.whole cc1_scratch0) (Memref.isWhole_whole _) (iblk1 V c 0 t) (iblk1 V c 1 t) (iblk1 V c 2 t) (iblk1 V c 3 t) (fun h => h0 ((hcond1 t).mp h)) _ Set.univ _)
    iframe H0 H1 H2 H3 HS0
    isplitl [H4]; · iexists _; iexact H4
    iintro ⟨H0, H1, H2, H3, H4, HS0⟩
    iframe

end Cert.KernelIdeal.Hand

end
-- ==== Proof.KI.R2Run.lean ====
import proofs.«108704_j53352083751414_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2 (i : grid2.Coords) : Prop := (Scalar.cmpi .ne (Scalar.extui (Scalar.cmpi .eq (BitVec.ofNat 32 (i 1).val) 0#32)) 0#32) = 1#1

/-- The accumulator is reset at the first of every four points of the row-major walk: decided over the grid. -/
theorem hcond2 : ∀ t : Fin cfg2.N, cond2 (grid2.coords t) ↔ t.val % 4 = 0 :=
  (by decide +kernel : ∀ t : Fin grid2.N, cond2 (grid2.coords t) ↔ t.val % 4 = 0)

theorem zeroOff2 : (![0, 0] : Fin 2 → Nat) = fun _ => 0 := by funext a; fin_cases a <;> rfl

variable (c : Dev nD) (i : grid2.Coords)
  (arg2 : Memref sig .tc .vmem S2048x1024 .f32) (harg2 : arg2.IsWhole) (arg3 : Memref sig .tc .vmem S2048x1 .f32) (harg3 : arg3.IsWhole)
  (arg4 : Memref sig .tc .vmem S1024x1 .f32) (harg4 : arg4.IsWhole) (arg5 : Memref sig .tc .vmem S1024x1 .f32) (harg5 : arg5.IsWhole)
  (x0 : Vec F S2048x1024 .f32) (x1 : Vec F S2048x1 .f32)

/-- What the body leaves when its accumulator started the point at `a`: the inputs untouched, the accumulator at the
    block product added to `a`, the output's buffer a copy of it. -/
abbrev left2 (a : Vec F S1024x1 .f32) : sProp 𝕄 :=
  iprop(owns (c : Thread nD τ) arg2 fullShare x0 ∗ owns (c : Thread nD τ) arg3 fullShare x1
    ∗ owns (c : Thread nD τ) arg4 fullShare (k2_pay2 x0 x1 a) ∗ owns (c : Thread nD τ) arg5 fullShare (k2_pay2 x0 x1 a))

/-- Where the accumulator is reset it starts the point at the zero block, whatever it held. -/
theorem runA2 (hc : cond2 i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (left2 c arg2 arg3 arg4 arg5 x0 x1 k2_pay1 -∗ K ⟨⟩))
      ⊢ wp frame (wpE (defs₀ (F := F)) Variants.none c none) E (cc2__matmulT_kernel i arg2 harg2 arg3 harg3 arg4 harg4 arg5 harg5) K := by
  simp only [cc2__matmulT_kernel_eq_skeleton]; unfold cc2__matmulT_kernel_skel
  unfold left2 owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x1.size (by sl_kernel_rfl))).trans ?_
    sl_unfold_words
    rw [View.canon_unit_zero (S := S1024x1) zeroOff2, View.readCov_cons_toLoadRect, View.readCov_cons_toLoadRect]
    simp only [View.readAt_eq_ld, harg2.read_unread, harg3.read_unread, harg5.read_unread, View.ld_unit_zero (S := S2048x1024) zeroOff2, View.ld_unit_zero (S := S2048x1) zeroOff2, View.ld_unit_zero (S := S1024x1) zeroOff2]
  iexists _; isplitr; swap; · iexact HS0
  ipureintro
  refine (View.read_writes_eq_canon _ _ _ (View.cover_of_tiledL _ S1024x1.size (by sl_kernel_rfl))).trans ?_
  sl_unfold_words
  rw [View.canon_cons_unit_zero (S := S1024x1) zeroOff2, View.readCov_cons_toLoadRect]
  simp only [View.readAt_eq_ld, harg2.read_unread, harg3.read_unread, harg5.read_unread, View.ld_unit_zero (S := S2048x1024) zeroOff2, View.ld_unit_zero (S := S2048x1) zeroOff2, View.ld_unit_zero (S := S1024x1) zeroOff2]

/-- Elsewhere it goes on from what it holds. -/
theorem runB2 (hc : ¬cond2 i) (xs0 : Vec F S1024x1 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs0
        ∗ (left2 c arg2 arg3 arg4 arg5 x0 x1 xs0 -∗ K ⟨⟩))
      ⊢ wp frame (wpE (defs₀ (F := F)) Variants.none c none) E (cc2__matmulT_kernel i arg2 harg2 arg3 harg3 arg4 harg4 arg5 harg5) K := by
  simp only [cc2__matmulT_kernel_eq_skeleton]; unfold cc2__matmulT_kernel_skel
  unfold left2 owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_eq_canon _ _ _ (View.cover_of_tiledL _ S1024x1.size (by sl_kernel_rfl))).trans ?_
    sl_unfold_words
    rw [View.canon_unit_zero (S := S1024x1) zeroOff2, View.readCov_cons_toLoadRect]
    simp only [View.readAt_eq_ld, harg2.read_unread, harg3.read_unread, harg5.read_unread, View.ld_unit_zero (S := S2048x1024) zeroOff2, View.ld_unit_zero (S := S2048x1) zeroOff2, View.ld_unit_zero (S := S1024x1) zeroOff2]
  iexists _; isplitr; swap; · iexact HS0
  ipureintro
  refine (View.read_writes_eq_canon _ _ _ (View.cover_of_tiledL _ S1024x1.size (by sl_kernel_rfl))).trans ?_
  sl_unfold_words
  rw [View.canon_unit_zero (S := S1024x1) zeroOff2]
  simp only [View.readAt_eq_ld, harg2.read_unread, harg3.read_unread, harg5.read_unread, View.ld_unit_zero (S := S2048x1024) zeroOff2, View.ld_unit_zero (S := S2048x1) zeroOff2, View.ld_unit_zero (S := S1024x1) zeroOff2]

end Cert.KernelIdeal.Hand

end
-- ==== Proof.KI.R2Dat.lean ====
import proofs.«108704_j53352083751414_1_alg».proof.Proof.KI.R2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk2 (V : EntryVal F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)

/-- The accumulator after the body at position `n`: the point's block product added to the zero block at the first of
    every four positions, and to what position `n - 1` left at the others. -/
def accAt2 (V : EntryVal F) (c : Dev nD) : (n : ℕ) → n < cfg2.N → Vec F S1024x1 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 4 = 0 then k2_pay1 else accAt2 V c n (Nat.lt_of_succ_lt hn))

theorem accAt2_reset (V : EntryVal F) (c : Dev nD) (t : Fin cfg2.N) (h0 : t.val % 4 = 0) :
    accAt2 V c t.val t.isLt = k2_pay2 (iblk2 V c 0 t) (iblk2 V c 1 t) k2_pay1 := by
  obtain ⟨n, hn⟩ := t
  cases n with
  | zero => rfl
  | succ n => exact congrArg (k2_pay2 _ _) (if_pos h0)
theorem accAt2_acc (V : EntryVal F) (c : Dev nD) (t : Fin cfg2.N) (h0 : ¬t.val % 4 = 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact congrArg (k2_pay2 _ _) (if_neg h0)

theorem scopedRestOwns2 (c : Dev nD) :
    (Pipeline.scopedRest (Ix := Unit) (Name := ℕ) (U := UR sig nD τ) (Lvl := ℕ) (Val := Elt F) spec2 c : sProp 𝕄)
      = iprop(iprop(∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  rw [scopedRest2_split]; simp only [owns_whole]; try rfl

/-- The invariant before position `n`: the accumulator holds what position `n - 1` left (anything before the first). -/
def Phi2 (V : EntryVal F) (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) (Memref.whole cc2_scratch0) fullShare (accAt2 V c n hn) ∗ Pipeline.scopedRestBut (Ix := Unit) (Name := ℕ) (U := UR sig nD τ) (Lvl := ℕ) (Val := Elt F) spec2 c [cc2_scratch0])

theorem Phi2_pos (V : EntryVal F) (c : Dev nD) (n : ℕ) (h : n ≤ cfg2.N) (hz : n ≠ 0) :
    Phi2 V c n h = iprop(owns (c : Thread nD τ) (Memref.whole cc2_scratch0) fullShare (accAt2 V c (n - 1) (by omega)) ∗ Pipeline.scopedRestBut (Ix := Unit) (Name := ℕ) (U := UR sig nD τ) (Lvl := ℕ) (Val := Elt F) spec2 c [cc2_scratch0]) := by
  cases n with
  | zero => exact absurd rfl hz
  | succ n => rfl

/-- At every position the invariant holds the accumulator at some contents. -/
theorem Phi2_some (V : EntryVal F) (c : Dev nD) (n : ℕ) (h : n ≤ cfg2.N) :
    Phi2 V c n h ⊢ iprop(iprop(∃ d, owns (c : Thread nD τ) (Memref.whole cc2_scratch0) fullShare d) ∗ Pipeline.scopedRestBut (Ix := Unit) (Name := ℕ) (U := UR sig nD τ) (Lvl := ℕ) (Val := Elt F) spec2 c [cc2_scratch0]) := by
  by_cases hz : n = 0
  · subst hz; rw [← scopedRestOwns2]; exact .rfl
  rw [Phi2_pos V c n h hz]
  iintro ⟨HS0, HR⟩
  isplitl [HS0]; · iexists _; iexact HS0
  iexact HR

def dat2 (V : EntryVal F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := Phi2 V c t.val (Nat.le_of_lt_succ t.isLt)
  q _ := fullShare
  owed _ := 0

theorem A_eq2 (V : EntryVal F) (c : Dev nD) (w : Fin cfg2.W) : (dat2 V c).A w = V c (Pipeline.arrRef spec2 w) := rfl
theorem q_eq2 (V : EntryVal F) (c : Dev nD) (w : Fin cfg2.W) : (dat2 V c).q w = fullShare := rfl
theorem owed_eq2 (V : EntryVal F) (c : Dev nD) (t) : (dat2 V c).owed t = 0 := rfl
theorem after2_2 (V : EntryVal F) (c : Dev nD) (t : Fin cfg2.N) : (dat2 V c).after 2 t = accAt2 V c t.val t.isLt := rfl

theorem before2_0 (V : EntryVal F) (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (V : EntryVal F) (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem hin2 (V : EntryVal F) (c : Dev nD) : (Pipeline.scopedRest (Ix := Unit) (Name := ℕ) (U := UR sig nD τ) (Lvl := ℕ) (Val := Elt F) spec2 c : sProp 𝕄) ⊢ (dat2 V c).Φ 0 := .rfl
theorem hout2 (V : EntryVal F) (c : Dev nD) : (dat2 V c).Φ (Fin.last cfg2.N) ⊢ (Pipeline.scopedRest (Ix := Unit) (Name := ℕ) (U := UR sig nD τ) (Lvl := ℕ) (Val := Elt F) spec2 c : sProp 𝕄) := by
  rw [scopedRestOwns2]; exact Phi2_some V c (Fin.last cfg2.N).val _

/-- The body at any point takes the accumulator from the invariant and gives it back at this point's contents, the output's
    buffer a copy of it; the inputs' buffers are left holding their blocks. -/
theorem body_obligation2 (V : EntryVal F) (c : Dev nD) : BodyObligation (dat2 (F := F) V c) (defs₀ (F := F)) Variants.none () Set.univ := fun t => by
  rw [bigSep_W2, bigSep_W2]
  show iprop(Phi2 V c t.castSucc.val _ ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame _ Set.univ (bodyAt2 t) fun _ => iprop(iprop(owns (c : Thread nD τ) (Memref.whole cc2_scratch0) fullShare (accAt2 V c t.val t.isLt) ∗ Pipeline.scopedRestBut (Ix := Unit) (Name := ℕ) (U := UR sig nD τ) (Lvl := ℕ) (Val := Elt F) spec2 c [cc2_scratch0])
      ∗ (dat2 V c).owesAt () t.castSucc
      ∗ owns (c : Thread nD τ) (ms2_0 t) fullShare (iblk2 V c 0 t) ∗ owns (c : Thread nD τ) (ms2_1 t) fullShare (iblk2 V c 1 t)
      ∗ owns (c : Thread nD τ) (ms2_2 t) fullShare (accAt2 V c t.val t.isLt))
  simp only [before2_0, before2_1, Fin.coe_castSucc]
  by_cases h0 : t.val % 4 = 0
  · rw [accAt2_reset V c t h0]
    iintro ⟨HΦ, Ho, ⟨%d0, H0⟩, ⟨%d1, H1⟩, ⟨%d2, H2⟩⟩
    ihave Hs := (Phi2_some V c _ _) $$ HΦ
    icases Hs with ⟨HS0, HR⟩
    iapply (runA2 c (grid2.coords t) (ms2_0 t) (hs2_0 t) (ms2_1 t) (hs2_1 t) (ms2_2 t) (hs2_2 t) (Memref.whole cc2_scratch0) (Memref.isWhole_whole _) (iblk2 V c 0 t) (iblk2 V c 1 t) ((hcond2 t).mpr h0) Set.univ _)
    iframe H0 H1 HS0
    isplitl [H2]; · iexists _; iexact H2
    iintro ⟨H0, H1, H2, HS0⟩
    iframe
  · rw [accAt2_acc V c t h0, Phi2_pos V c _ _ fun h => h0 (by rw [h])]
    iintro ⟨⟨HS0, HR⟩, Ho, ⟨%d0, H0⟩, ⟨%d1, H1⟩, ⟨%d2, H2⟩⟩
    iapply (runB2 c (grid2.coords t) (ms2_0 t) (hs2_0 t) (ms2_1 t) (hs2_1 t) (ms2_2 t) (hs2_2 t) (Memref.whole cc2_scratch0) (Memref.isWhole_whole _) (iblk2 V c 0 t) (iblk2 V c 1 t) (fun h => h0 ((hcond2 t).mp h)) _ Set.univ _)
    iframe H0 H1 HS0
    isplitl [H2]; · iexists _; iexact H2
    iintro ⟨H0, H1, H2, HS0⟩
    iframe

end Cert.KernelIdeal.Hand

end
-- ==== Proof.KI.R3Run.lean ====
import proofs.«108704_j53352083751414_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3 (i : grid3.Coords) : Prop := (Scalar.cmpi .ne (Scalar.extui (Scalar.cmpi .eq (BitVec.ofNat 32 (i 1).val) 0#32)) 0#32) = 1#1

/-- The accumulator is reset at the first of every four points of the row-major walk: decided over the grid. -/
theorem hcond3 : ∀ t : Fin cfg3.N, cond3 (grid3.coords t) ↔ t.val % 4 = 0 :=
  (by decide +kernel : ∀ t : Fin grid3.N, cond3 (grid3.coords t) ↔ t.val % 4 = 0)

theorem zeroOff3 : (![0, 0] : Fin 2 → Nat) = fun _ => 0 := by funext a; fin_cases a <;> rfl

variable (c : Dev nD) (i : grid3.Coords)
  (arg2 : Memref sig .tc .vmem S2048x1024 .f32) (harg2 : arg2.IsWhole) (arg3 : Memref sig .tc .vmem S2048x1 .f32) (harg3 : arg3.IsWhole)
  (arg4 : Memref sig .tc .vmem S1x1024 .f32) (harg4 : arg4.IsWhole) (arg5 : Memref sig .tc .vmem S1024x1 .f32) (harg5 : arg5.IsWhole)
  (arg6 : Memref sig .tc .vmem S2048x1 .f32) (harg6 : arg6.IsWhole) (arg7 : Memref sig .tc .vmem S2048x1 .f32) (harg7 : arg7.IsWhole)
  (x0 : Vec F S2048x1024 .f32) (x1 : Vec F S2048x1 .f32) (x2 : Vec F S1x1024 .f32) (x3 : Vec F S1024x1 .f32)

/-- What the body leaves when its accumulator started the point at `a`: the inputs untouched, the accumulator at the
    block product added to `a`, the output's buffer a copy of it. -/
abbrev left3 (a : Vec F S2048x1 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare (k3_pay2 x0 x1 x2 x3 a) ∗ owns (c : Thread nD τ) arg7 fullShare (k3_pay2 x0 x1 x2 x3 a))

/-- Where the accumulator is reset it starts the point at the zero block, whatever it held. -/
theorem runA3 (hc : cond3 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (left3 c arg2 arg3 arg4 arg5 arg6 arg7 x0 x1 x2 x3 k3_pay1 -∗ K ⟨⟩))
      ⊢ wp frame (wpE (defs₀ (F := F)) Variants.none c none) E (cc3__matmulA_kernel i arg2 harg2 arg3 harg3 arg4 harg4 arg5 harg5 arg6 harg6 arg7 harg7) K := by
  simp only [cc3__matmulA_kernel_eq_skeleton]; unfold cc3__matmulA_kernel_skel
  unfold left3 owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x1.size (by sl_kernel_rfl))).trans ?_
    sl_unfold_words
    rw [View.canon_unit_zero (S := S2048x1) zeroOff3, View.readCov_cons_toLoadRect, View.readCov_unit_zero (S := S2048x1) _ zeroOff3]
    simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]
  iexists _; isplitr; swap; · iexact HS0
  ipureintro
  refine (View.read_writes_eq_canon _ _ _ (View.cover_of_tiledL _ S2048x1.size (by sl_kernel_rfl))).trans ?_
  sl_unfold_words
  rw [View.canon_cons_unit_zero (S := S2048x1) zeroOff3, View.readCov_unit_zero (S := S2048x1) _ zeroOff3]
  simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]

/-- Elsewhere it goes on from what it holds. -/
theorem runB3 (hc : ¬cond3 i) (xs0 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs0
        ∗ (left3 c arg2 arg3 arg4 arg5 arg6 arg7 x0 x1 x2 x3 xs0 -∗ K ⟨⟩))
      ⊢ wp frame (wpE (defs₀ (F := F)) Variants.none c none) E (cc3__matmulA_kernel i arg2 harg2 arg3 harg3 arg4 harg4 arg5 harg5 arg6 harg6 arg7 harg7) K := by
  simp only [cc3__matmulA_kernel_eq_skeleton]; unfold cc3__matmulA_kernel_skel
  unfold left3 owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon _ _ _ (View.cover_of_tiledL _ S2048x1.size (by sl_kernel_rfl))).trans ?_
    sl_unfold_words
    rw [View.canon_unit_zero (S := S2048x1) zeroOff3, View.readCov_unit_zero (S := S2048x1) _ zeroOff3]
    simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]
  iexists _; isplitr; swap; · iexact HS0
  ipureintro
  refine (View.read_writes_eq_canon _ _ _ (View.cover_of_tiledL _ S2048x1.size (by sl_kernel_rfl))).trans ?_
  sl_unfold_words
  rw [View.canon_unit_zero (S := S2048x1) zeroOff3]
  simp only [View.readAt_eq_ld, harg2.read_unread, harg3.read_unread, harg4.read_unread, harg5.read_unread, harg7.read_unread, View.ld_unit_zero (S := S2048x1024) zeroOff3, View.ld_unit_zero (S := S2048x1) zeroOff3, View.ld_unit_zero (S := S1x1024) zeroOff3, View.ld_unit_zero (S := S1024x1) zeroOff3, View.ld_unit_zero (S := S2048x1) zeroOff3]

end Cert.KernelIdeal.Hand

end
-- ==== Proof.KI.R3Dat.lean ====
import proofs.«108704_j53352083751414_1_alg».proof.Proof.KI.R3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array at the entry contents. -/
def iblk3 (V : EntryVal F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x1 .f32 := win3_4.stage (cfg3.slots t 4)
abbrev hs3_4 (t : Fin cfg3.N) : (ms3_4 t).IsWhole := hstage3_4 ((cfg3.slots t 4).cast nbuf3_4)

/-- The accumulator after the body at position `n`: the point's block product added to the zero block at the first of
    every four positions, and to what position `n - 1` left at the others. -/
def accAt3 (V : EntryVal F) (c : Dev nD) : (n : ℕ) → n < cfg3.N → Vec F S2048x1 .f32
  | 0, hn => k3_pay2 (iblk3 V c 0 ⟨0, hn⟩) (iblk3 V c 1 ⟨0, hn⟩) (iblk3 V c 2 ⟨0, hn⟩) (iblk3 V c 3 ⟨0, hn⟩) k3_pay1
  | n + 1, hn => k3_pay2 (iblk3 V c 0 ⟨n + 1, hn⟩) (iblk3 V c 1 ⟨n + 1, hn⟩) (iblk3 V c 2 ⟨n + 1, hn⟩) (iblk3 V c 3 ⟨n + 1, hn⟩)
      (if (n + 1) % 4 = 0 then k3_pay1 else accAt3 V c n (Nat.lt_of_succ_lt hn))

theorem accAt3_reset (V : EntryVal F) (c : Dev nD) (t : Fin cfg3.N) (h0 : t.val % 4 = 0) :
    accAt3 V c t.val t.isLt = k3_pay2 (iblk3 V c 0 t) (iblk3 V c 1 t) (iblk3 V c 2 t) (iblk3 V c 3 t) k3_pay1 := by
  obtain ⟨n, hn⟩ := t
  cases n with
  | zero => rfl
  | succ n => exact congrArg (k3_pay2 _ _ _ _) (if_pos h0)
theorem accAt3_acc (V : EntryVal F) (c : Dev nD) (t : Fin cfg3.N) (h0 : ¬t.val % 4 = 0) :
    accAt3 V c t.val t.isLt = k3_pay2 (iblk3 V c 0 t) (iblk3 V c 1 t) (iblk3 V c 2 t) (iblk3 V c 3 t) (accAt3 V c (t.val - 1) (Nat.lt_of_le_of_lt (Nat.sub_le _ _) t.isLt)) := by
  obtain ⟨n, hn⟩ := t
  cases n with
  | zero => exact absurd (Nat.zero_mod _) h0
  | succ n => exact congrArg (k3_pay2 _ _ _ _) (if_neg h0)

theorem scopedRestOwns3 (c : Dev nD) :
    (Pipeline.scopedRest (Ix := Unit) (Name := ℕ) (U := UR sig nD τ) (Lvl := ℕ) (Val := Elt F) spec3 c : sProp 𝕄)
      = iprop(iprop(∃ d, owns (c : Thread nD τ) (Memref.whole cc3_scratch0) fullShare d) ∗ Pipeline.scopedRestBut (Ix := Unit) (Name := ℕ) (U := UR sig nD τ) (Lvl := ℕ) (Val := Elt F) spec3 c [cc3_scratch0]) := by
  rw [scopedRest3_split]; simp only [owns_whole]; try rfl

/-- The invariant before position `n`: the accumulator holds what position `n - 1` left (anything before the first). -/
def Phi3 (V : EntryVal F) (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) (Memref.whole cc3_scratch0) fullShare (accAt3 V c n hn) ∗ Pipeline.scopedRestBut (Ix := Unit) (Name := ℕ) (U := UR sig nD τ) (Lvl := ℕ) (Val := Elt F) spec3 c [cc3_scratch0])

theorem Phi3_pos (V : EntryVal F) (c : Dev nD) (n : ℕ) (h : n ≤ cfg3.N) (hz : n ≠ 0) :
    Phi3 V c n h = iprop(owns (c : Thread nD τ) (Memref.whole cc3_scratch0) fullShare (accAt3 V c (n - 1) (by omega)) ∗ Pipeline.scopedRestBut (Ix := Unit) (Name := ℕ) (U := UR sig nD τ) (Lvl := ℕ) (Val := Elt F) spec3 c [cc3_scratch0]) := by
  cases n with
  | zero => exact absurd rfl hz
  | succ n => rfl

/-- At every position the invariant holds the accumulator at some contents. -/
theorem Phi3_some (V : EntryVal F) (c : Dev nD) (n : ℕ) (h : n ≤ cfg3.N) :
    Phi3 V c n h ⊢ iprop(iprop(∃ d, owns (c : Thread nD τ) (Memref.whole cc3_scratch0) fullShare d) ∗ Pipeline.scopedRestBut (Ix := Unit) (Name := ℕ) (U := UR sig nD τ) (Lvl := ℕ) (Val := Elt F) spec3 c [cc3_scratch0]) := by
  by_cases hz : n = 0
  · subst hz; rw [← scopedRestOwns3]; exact .rfl
  rw [Phi3_pos V c n h hz]
  iintro ⟨HS0, HR⟩
  isplitl [HS0]; · iexists _; iexact HS0
  iexact HR

def dat3 (V : EntryVal F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => accAt3 V c t.val t.isLt
  Φ t := Phi3 V c t.val (Nat.le_of_lt_succ t.isLt)
  q _ := fullShare
  owed _ := 0

theorem A_eq3 (V : EntryVal F) (c : Dev nD) (w : Fin cfg3.W) : (dat3 V c).A w = V c (Pipeline.arrRef spec3 w) := rfl
theorem q_eq3 (V : EntryVal F) (c : Dev nD) (w : Fin cfg3.W) : (dat3 V c).q w = fullShare := rfl
theorem owed_eq3 (V : EntryVal F) (c : Dev nD) (t) : (dat3 V c).owed t = 0 := rfl
theorem after3_4 (V : EntryVal F) (c : Dev nD) (t : Fin cfg3.N) : (dat3 V c).after 4 t = accAt3 V c t.val t.isLt := rfl

theorem before3_0 (V : EntryVal F) (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (V : EntryVal F) (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (V : EntryVal F) (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (V : EntryVal F) (c : Dev nD) (t : Fin cfg3.N) (d) : (dat3 V c).before 3 t d = iblk3 V c 3 t :=
  ((dat3 V c).before_in_eq_fetched 3 rfl (fun _ => rfl) (fun _ _ _ => rfl) (fun _ => rfl) t d).trans rfl

theorem hin3 (V : EntryVal F) (c : Dev nD) : (Pipeline.scopedRest (Ix := Unit) (Name := ℕ) (U := UR sig nD τ) (Lvl := ℕ) (Val := Elt F) spec3 c : sProp 𝕄) ⊢ (dat3 V c).Φ 0 := .rfl
theorem hout3 (V : EntryVal F) (c : Dev nD) : (dat3 V c).Φ (Fin.last cfg3.N) ⊢ (Pipeline.scopedRest (Ix := Unit) (Name := ℕ) (U := UR sig nD τ) (Lvl := ℕ) (Val := Elt F) spec3 c : sProp 𝕄) := by
  rw [scopedRestOwns3]; exact Phi3_some V c (Fin.last cfg3.N).val _

/-- The body at any point takes the accumulator from the invariant and gives it back at this point's contents, the output's
    buffer a copy of it; the inputs' buffers are left holding their blocks. -/
theorem body_obligation3 (V : EntryVal F) (c : Dev nD) : BodyObligation (dat3 (F := F) V c) (defs₀ (F := F)) Variants.none () Set.univ := fun t => by
  rw [bigSep_W3, bigSep_W3]
  show iprop(Phi3 V c t.castSucc.val _ ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))
      ∗ (∃ d, owns (c : Thread nD τ) (ms3_4 t) fullShare ((dat3 V c).before 4 t d)))
    ⊢ wp frame _ Set.univ (bodyAt3 t) fun _ => iprop(iprop(owns (c : Thread nD τ) (Memref.whole cc3_scratch0) fullShare (accAt3 V c t.val t.isLt) ∗ Pipeline.scopedRestBut (Ix := Unit) (Name := ℕ) (U := UR sig nD τ) (Lvl := ℕ) (Val := Elt F) spec3 c [cc3_scratch0])
      ∗ (dat3 V c).owesAt () t.castSucc
      ∗ owns (c : Thread nD τ) (ms3_0 t) fullShare (iblk3 V c 0 t) ∗ owns (c : Thread nD τ) (ms3_1 t) fullShare (iblk3 V c 1 t)
      ∗ owns (c : Thread nD τ) (ms3_2 t) fullShare (iblk3 V c 2 t) ∗ owns (c : Thread nD τ) (ms3_3 t) fullShare (iblk3 V c 3 t)
      ∗ owns (c : Thread nD τ) (ms3_4 t) fullShare (accAt3 V c t.val t.isLt))
  simp only [before3_0, before3_1, before3_2, before3_3, Fin.coe_castSucc]
  by_cases h0 : t.val % 4 = 0
  · rw [accAt3_reset V c t h0]
    iintro ⟨HΦ, Ho, ⟨%d0, H0⟩, ⟨%d1, H1⟩, ⟨%d2, H2⟩, ⟨%d3, H3⟩, ⟨%d4, H4⟩⟩
    ihave Hs := (Phi3_some V c _ _) $$ HΦ
    icases Hs with ⟨HS0, HR⟩
    iapply (runA3 c (grid3.coords t) (ms3_0 t) (hs3_0 t) (ms3_1 t) (hs3_1 t) (ms3_2 t) (hs3_2 t) (ms3_3 t) (hs3_3 t) (ms3_4 t) (hs3_4 t) (Memref.whole cc3_scratch0) (Memref.isWhole_whole _) (iblk3 V c 0 t) (iblk3 V c 1 t) (iblk3 V c 2 t) (iblk3 V c 3 t) ((hcond3 t).mpr h0) Set.univ _)
    iframe H0 H1 H2 H3 HS0
    isplitl [H4]; · iexists _; iexact H4
    iintro ⟨H0, H1, H2, H3, H4, HS0⟩
    iframe
  · rw [accAt3_acc V c t h0, Phi3_pos V c _ _ fun h => h0 (by rw [h])]
    iintro ⟨⟨HS0, HR⟩, Ho, ⟨%d0, H0⟩, ⟨%d1, H1⟩, ⟨%d2, H2⟩, ⟨%d3, H3⟩, ⟨%d4, H4⟩⟩
    iapply (runB3 c (grid3.coords t) (ms3_0 t) (hs3_0 t) (ms3_1 t) (hs3_1 t) (ms3_2 t) (hs3_2 t) (ms3_3 t) (hs3_3 t) (ms3_4 t) (hs3_4 t) (Memref.whole cc3_scratch0) (Memref.isWhole_whole _) (iblk3 V c 0 t) (iblk3 V c 1 t) (iblk3 V c 2 t) (iblk3 V c 3 t) (fun h => h0 ((hcond3 t).mp h)) _ Set.univ _)
    iframe H0 H1 H2 H3 HS0
    isplitl [H4]; · iexists _; iexact H4
    iintro ⟨H0, H1, H2, H3, H4, HS0⟩
    iframe

end Cert.KernelIdeal.Hand

end
-- ==== Proof.KI.Pdats.lean ====
import proofs.«108704_j53352083751414_1_alg».proof.Proof.KI.R0Dat
import proofs.«108704_j53352083751414_1_alg».proof.Proof.KI.R1Dat
import proofs.«108704_j53352083751414_1_alg».proof.Proof.KI.R2Dat
import proofs.«108704_j53352083751414_1_alg».proof.Proof.KI.R3Dat
import proofs.«108704_j53352083751414_1_alg».proof.Proof.Gen.KernelIdeal.Regions
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (outs : Outs (F := F))

/-- Each region's entry contents: the valuation before its item. -/
abbrev EV0 : EntryVal F := fun c b => V1 m c b
abbrev EV1 : EntryVal F := fun c b => V2 m outs c b
abbrev EV2 : EntryVal F := fun c b => V8 m outs c b
abbrev EV3 : EntryVal F := fun c b => V9 m outs c b

/-- The four pipelines' proof data as one family. -/
def pdats : (p : Fin 4) → (c : Dev nD) → Dat τ (Elt F) Unit ℕ (UR sig nD τ) ℕ (cfgs p) c
  | ⟨0, _⟩ => fun c => dat0 (EV0 m) c
  | ⟨1, _⟩ => fun c => dat1 (EV1 m outs) c
  | ⟨2, _⟩ => fun c => dat2 (EV2 m outs) c
  | ⟨3, _⟩ => fun c => dat3 (EV3 m outs) c

abbrev 𝒱₀ : Variants := Variants.none
abbrev L : GSem nD τ sig → Finset Unit := fun _ => ∅
abbrev lv : GSem nD τ sig → Unit → ℕ := fun _ _ => 0
/-- What every item of @main passes on unchanged beside the buffers. -/
abbrev Rr (c : Dev nD) : sProp 𝕄 := iprop((∃ r, prngReg c r) ∗ ∃ W, owes (c : Thread nD τ) (0 : CellTallies nD τ sig Unit) W)

/-- What each region is asked to have left in its output array: what its own proof data compute. -/
abbrev OutsOk0 : Prop := ∀ c : Dev nD, outs 2 main_v7 c = (dat0 (EV0 m) c).arrAt 2 cfg0.N
abbrev OutsOk1 : Prop := ∀ c : Dev nD, outs 3 main_v8 c = (dat1 (EV1 m outs) c).arrAt 4 cfg1.N
abbrev OutsOk2 : Prop := ∀ c : Dev nD, outs 9 main_v32 c = (dat2 (EV2 m outs) c).arrAt 2 cfg2.N
abbrev OutsOk3 : Prop := ∀ c : Dev nD, outs 10 main_v33 c = (dat3 (EV3 m outs) c).arrAt 4 cfg3.N

end Cert.KernelIdeal.Hand

end
-- ==== Proof.KI.Seg.lean ====
import proofs.«108704_j53352083751414_1_alg».proof.Proof.KI.Pdats
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

theorem owes_in {cfg : Cfg sig Λ₀} {c : Dev nD} (d : Dat τ (Elt F) Unit ℕ (UR sig nD τ) ℕ cfg c) (ho : d.owed 0 = 0) (hr : d.recorded 0 = Set.univ) :
    (iprop(∃ W, owes (c : Thread nD τ) (0 : CellTallies nD τ sig Unit) W) : sProp 𝕄) ⊢ d.owesAt () 0 := by
  unfold Pipeline.Dat.owesAt Pipeline.owesWithin Pipeline.Dat.bound
  rw [ho, hr]
  iintro ⟨%W, HO⟩
  iexists W
  isplitr
  · ipureintro; exact fun _ _ => Or.inl trivial
  iexact HO

theorem owes_out {cfg : Cfg sig Λ₀} {c : Dev nD} (d : Dat τ (Elt F) Unit ℕ (UR sig nD τ) ℕ cfg c) (t) (ho : d.owed t = 0) :
    (d.owesAt () t : sProp 𝕄) ⊢ iprop(∃ W, owes (c : Thread nD τ) (0 : CellTallies nD τ sig Unit) W) := by
  unfold Pipeline.Dat.owesAt Pipeline.owesWithin
  rw [ho]
  iintro ⟨%W, -, HO⟩
  iexists W
  iexact HO

variable (m : (ℓ : Loc nD τ sig) → Buf (Elt F) ℓ) (outs : Outs (F := F))

set_option backward.isDefEq.respectTransparency.types false in
/-- A kernel region between the valuation before it and the valuation after it: its arrays are read off the first and end
    at the second, and the two agree everywhere else. -/
def regOf (p : Fin 4) (lf : Pipeline.LaunchFacts (nD := nD) (τ := τ) cfgs p)
    (hbody : ∀ c, BodyObligation (pdats m outs p c) (defs₀ (F := F)) Variants.none () Set.univ)
    (Vin Vout : (c : Dev nD) → Valuation τ sig (Elt F))
    (hq : ∀ c w, (pdats m outs p c).q w = fullShare) (howed : ∀ c t, (pdats m outs p c).owed t = 0)
    (hrec : ∀ c, (pdats m outs p c).recorded 0 = Set.univ)
    (hA : ∀ c w, (pdats m outs p c).A w = Vin c (Pipeline.arrRef (Pipeline.pin (pcfgs (F := F)) adm p).spec w))
    (hF : ∀ c w, (pdats m outs p c).arrAt w (Pipeline.pin (pcfgs (F := F)) adm p).N = Vout c (Pipeline.arrRef (Pipeline.pin (pcfgs (F := F)) adm p).spec w))
    (hoff : ∀ c (b : Ref sig .tc), b ∉ Finset.univ.image (Pipeline.arrRef (Pipeline.pin (pcfgs (F := F)) adm p).spec) → Vout c b = Vin c b)
    (hin : ∀ c, (Pipeline.scopedRest (Ix := Unit) (Name := ℕ) (U := UR sig nD τ) (Lvl := ℕ) (Val := Elt F) (Pipeline.pin (pcfgs (F := F)) adm p).spec c : sProp 𝕄) ⊢ (pdats m outs p c).Φ 0)
    (hout : ∀ c, (pdats m outs p c).Φ (Fin.last (Pipeline.pin (pcfgs (F := F)) adm p).N) ⊢ (Pipeline.scopedRest (Ix := Unit) (Name := ℕ) (U := UR sig nD τ) (Lvl := ℕ) (Val := Elt F) (Pipeline.pin (pcfgs (F := F)) adm p).spec c : sProp 𝕄)) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rr (F := F) c)
  post c := iprop(StableHlo.held (c : Thread nD τ) (Pipeline.ucRefs τ sig) (Vout c) ∗ Rr (F := F) c)
  X _ := BI.emp
  Y _ := BI.emp
  Z c := iprop(Pipeline.unscopedRest (Ix := Unit) (Name := ℕ) (U := UR sig nD τ) (Lvl := ℕ) (Pipeline.pin (pcfgs (F := F)) adm p).spec c (fun b => Vin c b) ∗ ∃ r, prngReg c r)
  hentry c := by
    have hs := Pipeline.arrays_of_unscopedBufs (p := p) (pcfgs (F := F)) adm (pdats m outs) lf.win lf.arr_whole c
      ((pdats m outs p c).share_full (hq c)) (fun b => Vin c b) (hA c)
    rw [Pipeline.unscopedBufs_held] at hs
    iintro ⟨⟨Hb, Hg, Ho⟩, -, -⟩
    ihave Hs := hs $$ Hb
    icases Hs with ⟨Ha, Hu⟩
    imodintro
    isplitl [Ha]; · iexact Ha
    isplitr; · unfold Pipeline.prefHeld; rw [show (Finset.univ : Finset (Fin 0)) = ∅ from rfl, BI.bigSep_empty]; iempintro
    isplitl [Ho]; · iapply (owes_in (pdats m outs p c) (howed c 0) (hrec c)); iexact Ho
    isplitr; · iempintro
    isplitl [Hu]; · iexact Hu
    iexact Hg
  hin c := by
    refine BIBase.Entails.trans ?_ (hin c)
    iintro ⟨-, -, Hr⟩
    iexact Hr
  hout c := by
    refine BIBase.Entails.trans (hout c) ?_
    rw [Pipeline.ownSems0_none]
    iintro Hr
    isplitr; · iempintro
    isplitr; · iempintro
    iexact Hr
  hexit c := by
    have hj := Pipeline.unscopedBufs_of_arrays (p := p) (pcfgs (F := F)) adm (Ix := Unit) (Name := ℕ) (U := UR sig nD τ) (Lvl := ℕ)
      lf.win lf.arr_whole c (pdats m outs) ((pdats m outs p c).share_full (hq c))
      (fun b => Vin c b) (fun b => Vout c b) ((pdats m outs p c).arrAt · (Pipeline.pin (pcfgs (F := F)) adm p).N) (hF c) (hoff c)
    rw [Pipeline.unscopedBufs_held] at hj
    iintro ⟨Ha, Ho, -, Hu, Hg⟩
    imodintro
    isplitl [Ha Hu]
    · iapply hj; isplitl [Ha] <;> iassumption
    isplitl [Hg]; · iexact Hg
    iapply (owes_out (pdats m outs p c) _ (howed c _)); iexact Ho

theorem arr_after0 (hok : OutsOk0 m outs) (c : Dev nD) (w : Fin cfg0.W) :
    (dat0 (EV0 m) c).arrAt w cfg0.N = V2 m outs c (Pipeline.arrRef spec0 w) := by
  fin_cases w
  · exact (((dat0 (EV0 m) c).arrAt_in 0 rfl _).trans (A_eq0 (EV0 m) c 0)).trans (V2_of m outs c main_arg3 (by decide)).symm
  · exact (((dat0 (EV0 m) c).arrAt_in 1 rfl _).trans (A_eq0 (EV0 m) c 1)).trans (V2_of m outs c main_v6 (by decide)).symm
  · have h : V2 m outs c (Pipeline.arrRef spec0 2) = outs 2 main_v7 c := Function.update_self _ _ _
    exact (h.trans (hok c)).symm

theorem off_arr0 (c : Dev nD) (b : Ref sig .tc) (hb : b ∉ Finset.univ.image (Pipeline.arrRef spec0)) :
    V2 m outs c b = V1 m c b :=
  V2_of m outs c b fun h => hb (by
    obtain rfl := List.mem_singleton.mp h
    exact Finset.mem_image.mpr ⟨2, Finset.mem_univ _, rfl⟩)

def reg0 (hok : OutsOk0 m outs) : Pipeline.RegionSeg (pcfgs (F := F)) adm (pdats m outs) () defs₀ 𝒱₀ L lv 0 :=
  regOf m outs 0 launch0 (body_obligation0 (EV0 m)) (fun c => V1 m c) (fun c => V2 m outs c) (q_eq0 (EV0 m)) (owed_eq0 (EV0 m))
    (fun _ => rfl) (A_eq0 (EV0 m)) (arr_after0 m outs hok) (off_arr0 m outs) (hin0 (EV0 m)) (hout0 (EV0 m))

theorem arr_after1 (hok : OutsOk1 m outs) (c : Dev nD) (w : Fin cfg1.W) :
    (dat1 (EV1 m outs) c).arrAt w cfg1.N = V3 m outs c (Pipeline.arrRef spec1 w) := by
  fin_cases w
  · exact (((dat1 (EV1 m outs) c).arrAt_in 0 rfl _).trans (A_eq1 (EV1 m outs) c 0)).trans (V3_of m outs c main_arg3 (by decide)).symm
  · exact (((dat1 (EV1 m outs) c).arrAt_in 1 rfl _).trans (A_eq1 (EV1 m outs) c 1)).trans (V3_of m outs c main_v0 (by decide)).symm
  · exact (((dat1 (EV1 m outs) c).arrAt_in 2 rfl _).trans (A_eq1 (EV1 m outs) c 2)).trans (V3_of m outs c main_v2 (by decide)).symm
  · exact (((dat1 (EV1 m outs) c).arrAt_in 3 rfl _).trans (A_eq1 (EV1 m outs) c 3)).trans (V3_of m outs c main_v7 (by decide)).symm
  · have h : V3 m outs c (Pipeline.arrRef spec1 4) = outs 3 main_v8 c := Function.update_self _ _ _
    exact (h.trans (hok c)).symm

theorem off_arr1 (c : Dev nD) (b : Ref sig .tc) (hb : b ∉ Finset.univ.image (Pipeline.arrRef spec1)) :
    V3 m outs c b = V2 m outs c b :=
  V3_of m outs c b fun h => hb (by
    obtain rfl := List.mem_singleton.mp h
    exact Finset.mem_image.mpr ⟨4, Finset.mem_univ _, rfl⟩)

def reg1 (hok : OutsOk1 m outs) : Pipeline.RegionSeg (pcfgs (F := F)) adm (pdats m outs) () defs₀ 𝒱₀ L lv 1 :=
  regOf m outs 1 launch1 (body_obligation1 (EV1 m outs)) (fun c => V2 m outs c) (fun c => V3 m outs c) (q_eq1 (EV1 m outs)) (owed_eq1 (EV1 m outs))
    (fun _ => rfl) (A_eq1 (EV1 m outs)) (arr_after1 m outs hok) (off_arr1 m outs) (hin1 (EV1 m outs)) (hout1 (EV1 m outs))

theorem arr_after2 (hok : OutsOk2 m outs) (c : Dev nD) (w : Fin cfg2.W) :
    (dat2 (EV2 m outs) c).arrAt w cfg2.N = V9 m outs c (Pipeline.arrRef spec2 w) := by
  fin_cases w
  · exact (((dat2 (EV2 m outs) c).arrAt_in 0 rfl _).trans (A_eq2 (EV2 m outs) c 0)).trans (V9_of m outs c main_arg3 (by decide)).symm
  · exact (((dat2 (EV2 m outs) c).arrAt_in 1 rfl _).trans (A_eq2 (EV2 m outs) c 1)).trans (V9_of m outs c main_v31 (by decide)).symm
  · have h : V9 m outs c (Pipeline.arrRef spec2 2) = outs 9 main_v32 c := Function.update_self _ _ _
    exact (h.trans (hok c)).symm

theorem off_arr2 (c : Dev nD) (b : Ref sig .tc) (hb : b ∉ Finset.univ.image (Pipeline.arrRef spec2)) :
    V9 m outs c b = V8 m outs c b :=
  V9_of m outs c b fun h => hb (by
    obtain rfl := List.mem_singleton.mp h
    exact Finset.mem_image.mpr ⟨2, Finset.mem_univ _, rfl⟩)

def reg2 (hok : OutsOk2 m outs) : Pipeline.RegionSeg (pcfgs (F := F)) adm (pdats m outs) () defs₀ 𝒱₀ L lv 2 :=
  regOf m outs 2 launch2 (body_obligation2 (EV2 m outs)) (fun c => V8 m outs c) (fun c => V9 m outs c) (q_eq2 (EV2 m outs)) (owed_eq2 (EV2 m outs))
    (fun _ => rfl) (A_eq2 (EV2 m outs)) (arr_after2 m outs hok) (off_arr2 m outs) (hin2 (EV2 m outs)) (hout2 (EV2 m outs))

theorem arr_after3 (hok : OutsOk3 m outs) (c : Dev nD) (w : Fin cfg3.W) :
    (dat3 (EV3 m outs) c).arrAt w cfg3.N = V10 m outs c (Pipeline.arrRef spec3 w) := by
  fin_cases w
  · exact (((dat3 (EV3 m outs) c).arrAt_in 0 rfl _).trans (A_eq3 (EV3 m outs) c 0)).trans (V10_of m outs c main_arg3 (by decide)).symm
  · exact (((dat3 (EV3 m outs) c).arrAt_in 1 rfl _).trans (A_eq3 (EV3 m outs) c 1)).trans (V10_of m outs c main_v0 (by decide)).symm
  · exact (((dat3 (EV3 m outs) c).arrAt_in 2 rfl _).trans (A_eq3 (EV3 m outs) c 2)).trans (V10_of m outs c main_v2 (by decide)).symm
  · exact (((dat3 (EV3 m outs) c).arrAt_in 3 rfl _).trans (A_eq3 (EV3 m outs) c 3)).trans (V10_of m outs c main_v32 (by decide)).symm
  · have h : V10 m outs c (Pipeline.arrRef spec3 4) = outs 10 main_v33 c := Function.update_self _ _ _
    exact (h.trans (hok c)).symm

theorem off_arr3 (c : Dev nD) (b : Ref sig .tc) (hb : b ∉ Finset.univ.image (Pipeline.arrRef spec3)) :
    V10 m outs c b = V9 m outs c b :=
  V10_of m outs c b fun h => hb (by
    obtain rfl := List.mem_singleton.mp h
    exact Finset.mem_image.mpr ⟨4, Finset.mem_univ _, rfl⟩)

def reg3 (hok : OutsOk3 m outs) : Pipeline.RegionSeg (pcfgs (F := F)) adm (pdats m outs) () defs₀ 𝒱₀ L lv 3 :=
  regOf m outs 3 launch3 (body_obligation3 (EV3 m outs)) (fun c => V9 m outs c) (fun c => V10 m outs c) (q_eq3 (EV3 m outs)) (owed_eq3 (EV3 m outs))
    (fun _ => rfl) (A_eq3 (EV3 m outs)) (arr_after3 m outs hok) (off_arr3 m outs) (hin3 (EV3 m outs)) (hout3 (EV3 m outs))

end Cert.KernelIdeal.Hand

end
-- ==== Proof.KI.Frame.lean ====
import proofs.«108704_j53352083751414_1_alg».proof.Proof.KI.Seg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Contents for the four products' output arrays; at any other buffer the launch memory's, which no valuation reads. -/
def outsOf (a7 : (c : Dev nD) → Buf (Elt F) ((c : Thread nD τ).loc main_v7)) (a8 : (c : Dev nD) → Buf (Elt F) ((c : Thread nD τ).loc main_v8))
    (a32 : (c : Dev nD) → Buf (Elt F) ((c : Thread nD τ).loc main_v32)) (a33 : (c : Dev nD) → Buf (Elt F) ((c : Thread nD τ).loc main_v33)) : Outs (F := F) :=
  fun _ r c =>
    if h : r = main_v7 then h ▸ a7 c
    else if h : r = main_v8 then h ▸ a8 c
    else if h : r = main_v32 then h ▸ a32 c
    else if h : r = main_v33 then h ▸ a33 c
    else m ((c : Thread nD τ).loc r)

section OutsOf

variable (a7 : (c : Dev nD) → Buf (Elt F) ((c : Thread nD τ).loc main_v7)) (a8 : (c : Dev nD) → Buf (Elt F) ((c : Thread nD τ).loc main_v8))
  (a32 : (c : Dev nD) → Buf (Elt F) ((c : Thread nD τ).loc main_v32)) (a33 : (c : Dev nD) → Buf (Elt F) ((c : Thread nD τ).loc main_v33))

theorem outsOf_v7 (n : ℕ) (c : Dev nD) : outsOf m a7 a8 a32 a33 n main_v7 c = a7 c := by
  unfold outsOf
  exact dif_pos rfl
theorem outsOf_v8 (n : ℕ) (c : Dev nD) : outsOf m a7 a8 a32 a33 n main_v8 c = a8 c := by
  unfold outsOf
  exact (dif_neg (show ¬ main_v8 = main_v7 by decide)).trans (dif_pos rfl)
theorem outsOf_v32 (n : ℕ) (c : Dev nD) : outsOf m a7 a8 a32 a33 n main_v32 c = a32 c := by
  unfold outsOf
  exact (dif_neg (show ¬ main_v32 = main_v7 by decide)).trans ((dif_neg (show ¬ main_v32 = main_v8 by decide)).trans (dif_pos rfl))
theorem outsOf_v33 (n : ℕ) (c : Dev nD) : outsOf m a7 a8 a32 a33 n main_v33 c = a33 c := by
  unfold outsOf
  exact (dif_neg (show ¬ main_v33 = main_v7 by decide)).trans ((dif_neg (show ¬ main_v33 = main_v8 by decide)).trans
    ((dif_neg (show ¬ main_v33 = main_v32 by decide)).trans (dif_pos rfl)))

end OutsOf

/-! The valuations read the named contents at the four output arrays only. -/
section Congr

variable {o o' : Outs (F := F)}

theorem V2_congr (h7 : ∀ c, o 2 main_v7 c = o' 2 main_v7 c) (c : Dev nD) : V2 m o c = V2 m o' c := by
  unfold V2; rw [h7 c]
theorem V3_congr (h7 : ∀ c, o 2 main_v7 c = o' 2 main_v7 c) (h8 : ∀ c, o 3 main_v8 c = o' 3 main_v8 c) (c : Dev nD) :
    V3 m o c = V3 m o' c := by
  unfold V3; rw [V2_congr m h7 c, h8 c]
theorem V8_congr (h7 : ∀ c, o 2 main_v7 c = o' 2 main_v7 c) (h8 : ∀ c, o 3 main_v8 c = o' 3 main_v8 c) (c : Dev nD) :
    V8 m o c = V8 m o' c := by
  unfold V8 V7 V6 V5 V4; rw [V3_congr m h7 h8 c]
theorem V9_congr (h7 : ∀ c, o 2 main_v7 c = o' 2 main_v7 c) (h8 : ∀ c, o 3 main_v8 c = o' 3 main_v8 c)
    (h32 : ∀ c, o 9 main_v32 c = o' 9 main_v32 c) (c : Dev nD) : V9 m o c = V9 m o' c := by
  unfold V9; rw [V8_congr m h7 h8 c, h32 c]

theorem EV1_congr (h7 : ∀ c, o 2 main_v7 c = o' 2 main_v7 c) : EV1 m o = EV1 m o' :=
  funext fun c => funext fun b => congrFun (V2_congr m h7 c) _
theorem EV2_congr (h7 : ∀ c, o 2 main_v7 c = o' 2 main_v7 c) (h8 : ∀ c, o 3 main_v8 c = o' 3 main_v8 c) : EV2 m o = EV2 m o' :=
  funext fun c => funext fun b => congrFun (V8_congr m h7 h8 c) _
theorem EV3_congr (h7 : ∀ c, o 2 main_v7 c = o' 2 main_v7 c) (h8 : ∀ c, o 3 main_v8 c = o' 3 main_v8 c)
    (h32 : ∀ c, o 9 main_v32 c = o' 9 main_v32 c) : EV3 m o = EV3 m o' :=
  funext fun c => funext fun b => congrFun (V9_congr m h7 h8 h32 c) _

end Congr

/-- Each product's output array is named from the valuation the products before it make, so none refers to itself. -/
def o7 (c : Dev nD) : Buf (Elt F) ((c : Thread nD τ).loc main_v7) := (dat0 (EV0 m) c).arrAt 2 cfg0.N
def outsA : Outs (F := F) := outsOf m (o7 m) (fun c => m _) (fun c => m _) (fun c => m _)
def o8 (c : Dev nD) : Buf (Elt F) ((c : Thread nD τ).loc main_v8) := (dat1 (EV1 m (outsA m)) c).arrAt 4 cfg1.N
def outsB : Outs (F := F) := outsOf m (o7 m) (o8 m) (fun c => m _) (fun c => m _)
def o32 (c : Dev nD) : Buf (Elt F) ((c : Thread nD τ).loc main_v32) := (dat2 (EV2 m (outsB m)) c).arrAt 2 cfg2.N
def outsC : Outs (F := F) := outsOf m (o7 m) (o8 m) (o32 m) (fun c => m _)
def o33 (c : Dev nD) : Buf (Elt F) ((c : Thread nD τ).loc main_v33) := (dat3 (EV3 m (outsC m)) c).arrAt 4 cfg3.N
def outsK : Outs (F := F) := outsOf m (o7 m) (o8 m) (o32 m) (o33 m)

theorem outsA_K7 (c : Dev nD) : outsA m 2 main_v7 c = outsK m 2 main_v7 c := (outsOf_v7 m _ _ _ _ 2 c).trans (outsOf_v7 m _ _ _ _ 2 c).symm
theorem outsB_K7 (c : Dev nD) : outsB m 2 main_v7 c = outsK m 2 main_v7 c := (outsOf_v7 m _ _ _ _ 2 c).trans (outsOf_v7 m _ _ _ _ 2 c).symm
theorem outsB_K8 (c : Dev nD) : outsB m 3 main_v8 c = outsK m 3 main_v8 c := (outsOf_v8 m _ _ _ _ 3 c).trans (outsOf_v8 m _ _ _ _ 3 c).symm
theorem outsC_K7 (c : Dev nD) : outsC m 2 main_v7 c = outsK m 2 main_v7 c := (outsOf_v7 m _ _ _ _ 2 c).trans (outsOf_v7 m _ _ _ _ 2 c).symm
theorem outsC_K8 (c : Dev nD) : outsC m 3 main_v8 c = outsK m 3 main_v8 c := (outsOf_v8 m _ _ _ _ 3 c).trans (outsOf_v8 m _ _ _ _ 3 c).symm
theorem outsC_K32 (c : Dev nD) : outsC m 9 main_v32 c = outsK m 9 main_v32 c := (outsOf_v32 m _ _ _ _ 9 c).trans (outsOf_v32 m _ _ _ _ 9 c).symm

/-- Each region leaves in its output array what its own proof data compute at the valuation the named contents make. -/
theorem ok0 : OutsOk0 m (outsK m) := fun c => outsOf_v7 m _ _ _ _ 2 c
theorem ok1 : OutsOk1 m (outsK m) := fun c =>
  (outsOf_v8 m _ _ _ _ 3 c).trans (congrArg (fun V => (dat1 V c).arrAt 4 cfg1.N) (EV1_congr m (outsA_K7 m)))
theorem ok2 : OutsOk2 m (outsK m) := fun c =>
  (outsOf_v32 m _ _ _ _ 9 c).trans (congrArg (fun V => (dat2 V c).arrAt 2 cfg2.N) (EV2_congr m (outsB_K7 m) (outsB_K8 m)))
theorem ok3 : OutsOk3 m (outsK m) := fun c =>
  (outsOf_v33 m _ _ _ _ 10 c).trans (congrArg (fun V => (dat3 V c).arrAt 4 cfg3.N) (EV3_congr m (outsC_K7 m) (outsC_K8 m) (outsC_K32 m)))

theorem Rr_owes (c : Dev nD) :
    Rr (F := F) c ⊢ (iprop(∃ W, owes (c : Thread nD τ) (0 : CellTallies nD τ sig Unit) W) : sProp 𝕄) := by
  iintro ⟨-, H⟩
  iexact H

theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [ownU_emb₁, BI.bigSep_emp_const]
  iintro Hu
  imodintro
  isplitl [Hu]; · iexact Hu
  iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main ends with each of its buffers at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = V11 m (outsK m) c b) := by
  refine Pipeline.θ_run_regions_kit_dev (pcfgs (F := F)) adm (pdats m (outsK m)) () cellOf_inj emb₁ defs₀ 𝒱₀ L lv m ρ main
    (segs m (outsK m) 𝒱₀ L lv (fun _ c => Rr (F := F) c) () (pdats m (outsK m))
      (reg0 m (outsK m) (ok0 m)) (reg1 m (outsK m) (ok1 m)) (reg2 m (outsK m) (ok2 m)) (reg3 m (outsK m) (ok3 m)))
    (fun c Q => ?hmain) (fun c => ?hnd) 0 (fun _ _ => rfl) (fun _ => BI.emp)
    (initOf (Pipeline.cells cfgs cellOf_inj) (Pipeline.launchToks cfgs cellOf_inj)) launch_own
    (T₀ := fun c => iprop(StableHlo.held (c : Thread nD τ) (Pipeline.ucRefs τ sig) (V0 m c) ∗ Rr (F := F) c))
    (Tₙ := fun c => StableHlo.held (c : Thread nD τ) (Pipeline.ucRefs τ sig) (V11 m (outsK m) c))
    (hch := fun c => ⟨.rfl, .rfl, .rfl, .rfl, .rfl, .rfl, .rfl, .rfl, .rfl, .rfl, .rfl,
      sep_mono .rfl (Rr_owes c)⟩)
    (hinit := ?hinit)
    (QY := fun c s => ∀ b ∈ Pipeline.ucRefs τ sig, s.mem ((c : Thread nD τ).1, b) = V11 m (outsK m) c b)
    (hfin := fun c s' => ?hfin) (hQ := fun _ h => h)
  case hmain =>
    rw [main_chain c, Pipeline.Seg.run_eq_chain]
    exact .rfl
  case hnd =>
    simp only [segs, Pipeline.Seg.pipes_host, Pipeline.Seg.pipes_region, Pipeline.Seg.pipes_nil]; decide
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hb, -, HO, -, Hp, -⟩, -⟩
    imodintro
    isplitl [Hb]; · iexact Hb
    isplitl [Hp]; · iexists _; iexact Hp
    iexists ∅; iexact HO
  case hfin =>
    unfold StableHlo.held
    iintro ⟨Hh, HSI⟩
    imodintro
    iapply (pointsTo_read_all (Pipeline.ucRefs τ sig) (fun b => ((c : Thread nD τ).1, b)) (V11 m (outsK m) c) s')
    isplitl [Hh] <;> iassumption

/-- Read at the result and at the nine arguments, which no item writes. -/
theorem run_val (ρ : Dev nD → PrngReg) : θ_run defs (onTc (τ := τ) (main (F := F))) ⟨m, fun _ => 0, ρ⟩ (fun r => ∀ c : Dev nD,
      r.2.mem ((c.tc : Thread nD τ).loc main_v40) = V11 m (outsK m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v40 (by decide)),
      (h c _ (mem_uc main_arg0 (by decide))).trans (V11_main_arg0 m (outsK m) c),
      (h c _ (mem_uc main_arg1 (by decide))).trans (V11_main_arg1 m (outsK m) c),
      (h c _ (mem_uc main_arg2 (by decide))).trans (V11_main_arg2 m (outsK m) c),
      (h c _ (mem_uc main_arg3 (by decide))).trans (V11_main_arg3 m (outsK m) c),
      (h c _ (mem_uc main_arg4 (by decide))).trans (V11_main_arg4 m (outsK m) c),
      (h c _ (mem_uc main_arg5 (by decide))).trans (V11_main_arg5 m (outsK m) c),
      (h c _ (mem_uc main_arg6 (by decide))).trans (V11_main_arg6 m (outsK m) c),
      (h c _ (mem_uc main_arg7 (by decide))).trans (V11_main_arg7 m (outsK m) c),
      (h c _ (mem_uc main_arg8 (by decide))).trans (V11_main_arg8 m (outsK m) c)⟩) (run_all m ρ)

end Cert.KernelIdeal.Hand

end
-- ==== Proof.Ref.Stages.lean ====
import proofs.«108704_j53352083751414_1_alg».proof.ReferenceIdeal
import Idealize.ShloMosaic.PureOps.Ideal

set_option maxRecDepth 16384

noncomputable section

namespace Cert.ReferenceIdeal.Hand

open Cert.ReferenceIdeal
open Idealize.ShloMosaic Idealize.SL.Sem

variable [Facts]
open Facts₀ Facts

abbrev Arr (s : Shape) : Type := FVec Ideal s .f32

def stXt (X : Arr S8192x128) (θ1 : Arr S128x64) : Arr S8192x64 :=
  Host.dotGeneral (F := Ideal) dot_S8192x128_S128x64_S8192x64_1_0_0_1_n_n none X θ1

def stBdv (dv : Arr S8192) : Arr S8192x1 :=
  broadcastInDim S8192x1 ![0] bcast_S8192_S8192x1_0 dv

def stV64 (dv : Arr S8192) (I : Arr S8192x64) : Arr S8192x64 :=
  mulf (F := Ideal) (broadcastInDim S8192x64 ![0, 1] bcast_S8192x1_S8192x64_0_1 (stBdv dv)) I

def stV1 (dv : Arr S8192) (I : Arr S8192x1) : Arr S8192x1 :=
  mulf (F := Ideal) (stBdv dv) I

def stCol (W De : Arr S4096) : Arr S1x4096 :=
  broadcastInDim S1x4096 ![1] bcast_S4096_S1x4096_1 (mulf (F := Ideal) W De)

/-- The scaled incidence matrix: row `n` by its vertex's inverse degree, column `e` by its edge's weight over its degree. -/
def stA (dv : Arr S8192) (H : Arr S8192x4096) (W De : Arr S4096) : Arr S8192x4096 :=
  mulf (F := Ideal)
    (mulf (F := Ideal) (broadcastInDim S8192x4096 ![0, 1] bcast_S8192x1_S8192x4096_0_1 (stBdv dv)) H)
    (broadcastInDim S8192x4096 ![0, 1] bcast_S1x4096_S8192x4096_0_1 (stCol W De))

def stM64 (H : Arr S8192x4096) (V : Arr S8192x64) : Arr S4096x64 :=
  Host.dotGeneral (F := Ideal) dot_S4096x8192_S8192x64_S4096x64_1_0_0_1_n_n none
    (transpose S4096x8192 [1, 0] H transposes_S8192x4096_S4096x8192_1_0) V

def stM1 (H : Arr S8192x4096) (V : Arr S8192x1) : Arr S4096x1 :=
  Host.dotGeneral (F := Ideal) dot_S4096x8192_S8192x1_S4096x1_1_0_0_1_n_n none
    (transpose S4096x8192 [1, 0] H transposes_S8192x4096_S4096x8192_1_0) V

def stZ64 (A : Arr S8192x4096) (M : Arr S4096x64) : Arr S8192x64 :=
  Host.dotGeneral (F := Ideal) dot_S8192x4096_S4096x64_S8192x64_1_0_0_1_n_n none A M

def stZ1 (A : Arr S8192x4096) (M : Arr S4096x1) : Arr S8192x1 :=
  Host.dotGeneral (F := Ideal) dot_S8192x4096_S4096x1_S8192x1_1_0_0_1_n_n none A M

def stLeaky (Z : Arr S8192x64) : Arr S8192x64 :=
  select
    (cmpf (F := Ideal) .oge Z (broadcastInDim S8192x64 ![] bcast_S_S8192x64 (constant (F := Ideal) S_ .f32 0x00000000#32)))
    Z
    (mulf (F := Ideal)
      (broadcastInDim S8192x64 ![] bcast_S_S8192x64 (id (constant (F := Ideal) S_ .f32 0x3C23D70A#32))) Z)

def stMean (L : Arr S8192x64) : Arr S64 :=
  Host.divf (F := Ideal)
    (Host.reduceAdd (F := Ideal) L (constant (F := Ideal) S_ .f32 0x00000000#32) reducesTo_S8192x64_S64_d0 h_S_)
    (broadcastInDim S64 ![] bcast_S_S64 (constant (F := Ideal) S_ .f32 0x46000000#32))

def stVarN : Arr S_ :=
  subf (F := Ideal) (constant (F := Ideal) S_ .f32 0x46000000#32)
    (sitofp (F := Ideal) .f32 (constantI S_ 32 0#32))

def stVarDev (L : Arr S8192x64) : Arr S8192x64 :=
  subf (F := Ideal) L
    (broadcastInDim S8192x64 ![0, 1] bcast_S1x64_S8192x64_0_1
      (Host.divf (F := Ideal)
        (broadcastInDim S1x64 ![1] bcast_S64_S1x64_1
          (Host.reduceAdd (F := Ideal) L (constant (F := Ideal) S_ .f32 0x00000000#32) reducesTo_S8192x64_S64_d0 h_S_))
        (broadcastInDim S1x64 ![] bcast_S_S1x64 (constant (F := Ideal) S_ .f32 0x46000000#32))))

def stVarSq (L : Arr S8192x64) : Arr S8192x64 :=
  mulf (F := Ideal) (stVarDev L) (stVarDev L)

def stVar (L : Arr S8192x64) : Arr S64 :=
  select
    (broadcastInDim S64 ![] bcast_S_S64
      (cmpf (F := Ideal) .ogt stVarN (constant (F := Ideal) S_ .f32 0x00000000#32)))
    (Host.divf (F := Ideal)
      (Host.reduceAdd (F := Ideal) (stVarSq L) (constant (F := Ideal) S_ .f32 0x00000000#32) reducesTo_S8192x64_S64_d0 h_S_)
      (broadcastInDim S64 ![] bcast_S_S64 stVarN))
    (broadcastInDim S64 ![] bcast_S_S64 (id (constant (F := Ideal) S_ .f32 0x7FC00000#32)))

def stNorm (L : Arr S8192x64) (μ σ2 γ β : Arr S64) : Arr S8192x64 :=
  addf (F := Ideal)
    (mulf (F := Ideal)
      (Host.divf (F := Ideal)
        (subf (F := Ideal) L
          (broadcastInDim S8192x64 ![0, 1] bcast_S1x64_S8192x64_0_1 (broadcastInDim S1x64 ![1] bcast_S64_S1x64_1 μ)))
        (broadcastInDim S8192x64 ![0, 1] bcast_S1x64_S8192x64_0_1
          (broadcastInDim S1x64 ![1] bcast_S64_S1x64_1
            (Host.sqrt (F := Ideal)
              (addf (F := Ideal) σ2
                (broadcastInDim S64 ![] bcast_S_S64 (constant (F := Ideal) S_ .f32 0x3727C5AC#32)))))))
      (broadcastInDim S8192x64 ![0, 1] bcast_S1x64_S8192x64_0_1 (broadcastInDim S1x64 ![1] bcast_S64_S1x64_1 γ)))
    (broadcastInDim S8192x64 ![0, 1] bcast_S1x64_S8192x64_0_1 (broadcastInDim S1x64 ![1] bcast_S64_S1x64_1 β))

/-- From the first propagation to the second's input: rectify, normalise over the batch axis, project, scale the rows. -/
def stMid (Z : Arr S8192x64) (dv : Arr S8192) (γ β : Arr S64) (θ2 : Arr S64x1) : Arr S8192x1 :=
  stV1 dv
    (Host.dotGeneral (F := Ideal) dot_S8192x64_S64x1_S8192x1_1_0_0_1_n_n none
      (stNorm (stLeaky Z) (stMean (stLeaky Z)) (stVar (stLeaky Z)) γ β) θ2)

def stTail (Z : Arr S8192x1) : Arr S8192 :=
  shapeCast S8192
    (Host.divf (F := Ideal)
      (broadcastInDim S8192x1 ![] bcast_S_S8192x1 (constant (F := Ideal) S_ .f32 0x3F800000#32))
      (addf (F := Ideal)
        (broadcastInDim S8192x1 ![] bcast_S_S8192x1 (constant (F := Ideal) S_ .f32 0x3F800000#32))
        (Host.exp (F := Ideal) (Host.negf (F := Ideal) Z))))
    shapeCasts_S8192x1_S8192

/-- The reference's value: `A · (Hᵀ · ·)` applied to the row-scaled projection `d ⊙ (X · θ₁)`, then to `stMid` of that result,
    then the logistic map. -/
def refOut (X : Arr S8192x128) (dv : Arr S8192) (De : Arr S4096) (H : Arr S8192x4096) (W : Arr S4096)
    (θ1 : Arr S128x64) (θ2 : Arr S64x1) (γ β : Arr S64) : Arr S8192 :=
  stTail (stZ1 (stA dv H W De) (stM1 H (stMid (stZ64 (stA dv H W De) (stM64 H (stV64 dv (stXt X θ1)))) dv γ β θ2)))

end Cert.ReferenceIdeal.Hand

end
-- ==== Proof.Ref.Run.lean ====
import proofs.«108704_j53352083751414_1_alg».proof.Proof.Gen.ReferenceIdeal
import proofs.«108704_j53352083751414_1_alg».proof.Proof.Ref.Stages
import Idealize.ShloMosaic.Lib.StableHlo.Run
import Idealize.ShloMosaic.Lib.Pipeline.Regions

set_option maxRecDepth 16384

noncomputable section

namespace Cert.ReferenceIdeal.Hand

open Cert.ReferenceIdeal
open Idealize.ShloMosaic Idealize.ShloMosaic.TcCoe Idealize.SL.Sem Idealize.ShloMosaic.StableHlo
open Facts₀ Facts

variable {F : FTy → Type} [FloatOps F]

/-- The reference's @main as a list of array operations. -/
abbrev ops : List (HloOp τ sig (Elt F)) :=
  [ StableHlo.unary main_arg1 main_v0 (broadcastInDim S8192x1 ![0] bcast_S8192_S8192x1_0 : (⟨S8192, .f32⟩ : BufTy).Contents (Elt F) → (⟨S8192x1, .f32⟩ : BufTy).Contents (Elt F)),
    StableHlo.unary main_v0 main_v1 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v1 main_arg3 main_v2 (mulf : (⟨S8192x4096, .f32⟩ : BufTy).Contents (Elt F) → (⟨S8192x4096, .f32⟩ : BufTy).Contents (Elt F) → (⟨S8192x4096, .f32⟩ : BufTy).Contents (Elt F)),
    StableHlo.binary main_arg4 main_arg2 main_v3 (mulf : (⟨S4096, .f32⟩ : BufTy).Contents (Elt F) → (⟨S4096, .f32⟩ : BufTy).Contents (Elt F) → (⟨S4096, .f32⟩ : BufTy).Contents (Elt F)),
    StableHlo.unary main_v3 main_v4 (broadcastInDim S1x4096 ![1] bcast_S4096_S1x4096_1 : (⟨S4096, .f32⟩ : BufTy).Contents (Elt F) → (⟨S1x4096, .f32⟩ : BufTy).Contents (Elt F)),
    StableHlo.unary main_v4 main_v5 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v2 main_v5 main_v6 (mulf : (⟨S8192x4096, .f32⟩ : BufTy).Contents (Elt F) → (⟨S8192x4096, .f32⟩ : BufTy).Contents (Elt F) → (⟨S8192x4096, .f32⟩ : BufTy).Contents (Elt F)),
    StableHlo.binary main_arg0 main_arg5 main_v7 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    StableHlo.unary main_arg3 main_v8 ((transpose S4096x8192 [1, 0] · transposes_S8192x4096_S4096x8192_1_0) : (⟨S8192x4096, .f32⟩ : BufTy).Contents (Elt F) → (⟨S4096x8192, .f32⟩ : BufTy).Contents (Elt F)),
    StableHlo.unary main_arg1 main_v9 (broadcastInDim S8192x1 ![0] bcast_S8192_S8192x1_0 : (⟨S8192, .f32⟩ : BufTy).Contents (Elt F) → (⟨S8192x1, .f32⟩ : BufTy).Contents (Elt F)),
    StableHlo.unary main_v9 main_v10 (broadcastInDim S8192x64 ![0, 1] bcast_S8192x1_S8192x64_0_1 : (⟨S8192x1, .f32⟩ : BufTy).Contents (Elt F) → (⟨S8192x64, .f32⟩ : BufTy).Contents (Elt F)),
    StableHlo.binary main_v10 main_v7 main_v11 (mulf : (⟨S8192x64, .f32⟩ : BufTy).Contents (Elt F) → (⟨S8192x64, .f32⟩ : BufTy).Contents (Elt F) → (⟨S8192x64, .f32⟩ : BufTy).Contents (Elt F)),
    StableHlo.binary main_v8 main_v11 main_v12 ((fun l r => Host.dotGeneral dot_S4096x8192_S8192x64_S4096x64_1_0_0_1_n_n none l r) : (⟨S4096x8192, .f32⟩ : BufTy).Contents (Elt F) → (⟨S8192x64, .f32⟩ : BufTy).Contents (Elt F) → (⟨S4096x64, .f32⟩ : BufTy).Contents (Elt F)),
    StableHlo.binary main_v6 main_v12 main_v13 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    StableHlo.nullary main_cst (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8192x64, .f32⟩) (broadcastInDim S8192x64 ![] bcast_S_S8192x64),
    StableHlo.TRef.binary (.of main_v13 : StableHlo.TRef sig ⟨S8192x64, .f32⟩) (.of main_call0_v0 : StableHlo.TRef sig ⟨S8192x64, .f32⟩) (.of main_call0_v1 : StableHlo.TRef sig ⟨S8192x64, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S8192x64, .f32⟩) (broadcastInDim S8192x64 ![] bcast_S_S8192x64),
    StableHlo.TRef.binary (.of main_call0_v3 : StableHlo.TRef sig ⟨S8192x64, .f32⟩) (.of main_v13 : StableHlo.TRef sig ⟨S8192x64, .f32⟩) (.of main_call0_v4 : StableHlo.TRef sig ⟨S8192x64, .f32⟩) mulf,
    StableHlo.TRef.ternary (.of main_call0_v1 : StableHlo.TRef sig ⟨S8192x64, .i1⟩) (.of main_v13 : StableHlo.TRef sig ⟨S8192x64, .f32⟩) (.of main_call0_v4 : StableHlo.TRef sig ⟨S8192x64, .f32⟩) (.of main_v14 : StableHlo.TRef sig ⟨S8192x64, .f32⟩) select,
    StableHlo.nullary main_cst_0 (constant S_ .f32 0x00000000#32),
    StableHlo.binary main_v14 main_cst_0 main_v15 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.nullary main_cst_1 (constant S_ .f32 0x46000000#32),
    StableHlo.unary main_cst_1 main_v16 (broadcastInDim S64 ![] bcast_S_S64 : (⟨S_, .f32⟩ : BufTy).Contents (Elt F) → (⟨S64, .f32⟩ : BufTy).Contents (Elt F)),
    StableHlo.binary main_v15 main_v16 main_v17 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary (.of main_call1_cst : StableHlo.TRef sig ⟨S_, .f32⟩) (constant S_ .f32 0x00000000#32),
    StableHlo.TRef.binary (.of main_v14 : StableHlo.TRef sig ⟨S8192x64, .f32⟩) (.of main_call1_cst : StableHlo.TRef sig ⟨S_, .f32⟩) (.of main_call1_v0 : StableHlo.TRef sig ⟨S64, .f32⟩) (fun x v => Host.reduceAdd x v reducesTo_S8192x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x46000000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S8192x64, .f32⟩) (broadcastInDim S8192x64 ![0, 1] bcast_S1x64_S8192x64_0_1),
    StableHlo.TRef.binary (.of main_v14 : StableHlo.TRef sig ⟨S8192x64, .f32⟩) (.of main_call1_v4 : StableHlo.TRef sig ⟨S8192x64, .f32⟩) (.of main_call1_v5 : StableHlo.TRef sig ⟨S8192x64, .f32⟩) subf,
    StableHlo.TRef.binary (.of main_call1_v5 : StableHlo.TRef sig ⟨S8192x64, .f32⟩) (.of main_call1_v5 : StableHlo.TRef sig ⟨S8192x64, .f32⟩) (.of main_call1_v6 : StableHlo.TRef sig ⟨S8192x64, .f32⟩) mulf,
    StableHlo.TRef.unary (.of main_c : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8192x64, .f32⟩) (.of main_call1_cst_2 : StableHlo.TRef sig ⟨S_, .f32⟩) (.of main_call1_v9 : StableHlo.TRef sig ⟨S64, .f32⟩) (fun x v => Host.reduceAdd x v reducesTo_S8192x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v18 : StableHlo.TRef sig ⟨S64, .f32⟩) (fun p a b => select (broadcastInDim S64 ![] bcast_S_S64 p) a b),
    StableHlo.unary main_v17 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S8192x64 ![0, 1] bcast_S1x64_S8192x64_0_1 : (⟨S1x64, .f32⟩ : BufTy).Contents (Elt F) → (⟨S8192x64, .f32⟩ : BufTy).Contents (Elt F)),
    StableHlo.binary main_v14 main_v20 main_v21 (subf : (⟨S8192x64, .f32⟩ : BufTy).Contents (Elt F) → (⟨S8192x64, .f32⟩ : BufTy).Contents (Elt F) → (⟨S8192x64, .f32⟩ : BufTy).Contents (Elt F)),
    StableHlo.nullary main_cst_2 (constant S_ .f32 0x3727C5AC#32),
    StableHlo.unary main_cst_2 main_v22 (broadcastInDim S64 ![] bcast_S_S64 : (⟨S_, .f32⟩ : BufTy).Contents (Elt F) → (⟨S64, .f32⟩ : BufTy).Contents (Elt F)),
    StableHlo.binary main_v18 main_v22 main_v23 (addf : (⟨S64, .f32⟩ : BufTy).Contents (Elt F) → (⟨S64, .f32⟩ : BufTy).Contents (Elt F) → (⟨S64, .f32⟩ : BufTy).Contents (Elt F)),
    StableHlo.unary main_v23 main_v24 (Host.sqrt : (⟨S64, .f32⟩ : BufTy).Contents (Elt F) → (⟨S64, .f32⟩ : BufTy).Contents (Elt F)),
    StableHlo.unary main_v24 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S8192x64 ![0, 1] bcast_S1x64_S8192x64_0_1 : (⟨S1x64, .f32⟩ : BufTy).Contents (Elt F) → (⟨S8192x64, .f32⟩ : BufTy).Contents (Elt F)),
    StableHlo.binary main_v21 main_v26 main_v27 (Host.divf : (⟨S8192x64, .f32⟩ : BufTy).Contents (Elt F) → (⟨S8192x64, .f32⟩ : BufTy).Contents (Elt F) → (⟨S8192x64, .f32⟩ : BufTy).Contents (Elt F)),
    StableHlo.unary main_arg7 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S8192x64 ![0, 1] bcast_S1x64_S8192x64_0_1 : (⟨S1x64, .f32⟩ : BufTy).Contents (Elt F) → (⟨S8192x64, .f32⟩ : BufTy).Contents (Elt F)),
    StableHlo.binary main_v27 main_v29 main_v30 (mulf : (⟨S8192x64, .f32⟩ : BufTy).Contents (Elt F) → (⟨S8192x64, .f32⟩ : BufTy).Contents (Elt F) → (⟨S8192x64, .f32⟩ : BufTy).Contents (Elt F)),
    StableHlo.unary main_arg8 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S8192x64 ![0, 1] bcast_S1x64_S8192x64_0_1 : (⟨S1x64, .f32⟩ : BufTy).Contents (Elt F) → (⟨S8192x64, .f32⟩ : BufTy).Contents (Elt F)),
    StableHlo.binary main_v30 main_v32 main_v33 (addf : (⟨S8192x64, .f32⟩ : BufTy).Contents (Elt F) → (⟨S8192x64, .f32⟩ : BufTy).Contents (Elt F) → (⟨S8192x64, .f32⟩ : BufTy).Contents (Elt F)),
    StableHlo.binary main_v33 main_arg6 main_v34 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    StableHlo.unary main_arg3 main_v35 ((transpose S4096x8192 [1, 0] · transposes_S8192x4096_S4096x8192_1_0) : (⟨S8192x4096, .f32⟩ : BufTy).Contents (Elt F) → (⟨S4096x8192, .f32⟩ : BufTy).Contents (Elt F)),
    StableHlo.unary main_arg1 main_v36 (broadcastInDim S8192x1 ![0] bcast_S8192_S8192x1_0 : (⟨S8192, .f32⟩ : BufTy).Contents (Elt F) → (⟨S8192x1, .f32⟩ : BufTy).Contents (Elt F)),
    StableHlo.binary main_v36 main_v34 main_v37 (mulf : (⟨S8192x1, .f32⟩ : BufTy).Contents (Elt F) → (⟨S8192x1, .f32⟩ : BufTy).Contents (Elt F) → (⟨S8192x1, .f32⟩ : BufTy).Contents (Elt F)),
    StableHlo.binary main_v35 main_v37 main_v38 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)),
    StableHlo.binary main_v6 main_v38 main_v39 ((fun l r => Host.dotGeneral dot_S8192x4096_S4096x1_S8192x1_1_0_0_1_n_n none l r) : (⟨S8192x4096, .f32⟩ : BufTy).Contents (Elt F) → (⟨S4096x1, .f32⟩ : BufTy).Contents (Elt F) → (⟨S8192x1, .f32⟩ : BufTy).Contents (Elt F)),
    StableHlo.unary main_v39 main_v40 (Host.negf : (⟨S8192x1, .f32⟩ : BufTy).Contents (Elt F) → (⟨S8192x1, .f32⟩ : BufTy).Contents (Elt F)),
    StableHlo.unary main_v40 main_v41 (Host.exp : (⟨S8192x1, .f32⟩ : BufTy).Contents (Elt F) → (⟨S8192x1, .f32⟩ : BufTy).Contents (Elt F)),
    StableHlo.nullary main_cst_3 (constant S_ .f32 0x3F800000#32),
    StableHlo.unary main_cst_3 main_v42 (broadcastInDim S8192x1 ![] bcast_S_S8192x1 : (⟨S_, .f32⟩ : BufTy).Contents (Elt F) → (⟨S8192x1, .f32⟩ : BufTy).Contents (Elt F)),
    StableHlo.binary main_v42 main_v41 main_v43 (addf : (⟨S8192x1, .f32⟩ : BufTy).Contents (Elt F) → (⟨S8192x1, .f32⟩ : BufTy).Contents (Elt F) → (⟨S8192x1, .f32⟩ : BufTy).Contents (Elt F)),
    StableHlo.nullary main_cst_4 (constant S_ .f32 0x3F800000#32),
    StableHlo.unary main_cst_4 main_v44 (broadcastInDim S8192x1 ![] bcast_S_S8192x1 : (⟨S_, .f32⟩ : BufTy).Contents (Elt F) → (⟨S8192x1, .f32⟩ : BufTy).Contents (Elt F)),
    StableHlo.binary main_v44 main_v43 main_v45 (Host.divf : (⟨S8192x1, .f32⟩ : BufTy).Contents (Elt F) → (⟨S8192x1, .f32⟩ : BufTy).Contents (Elt F) → (⟨S8192x1, .f32⟩ : BufTy).Contents (Elt F)),
    StableHlo.reshape main_v45 main_v46 rfl shapeCasts_S8192x1_S8192 ]

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

set_option maxHeartbeats 1600000 in
/-- After the operations the result's buffer holds the composed stages of the arguments. -/
theorem out_eq (V : Valuation τ sig (Elt Ideal)) :
    after (ops (F := Ideal)) V (main_v46 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  simp only [refOut, stTail, stZ1, stZ64, stM1, stM64, stA, stCol, stV1, stV64, stBdv, stXt, stMid, stNorm, stVar, stVarSq, stVarDev, stVarN, stMean, stLeaky]
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp
theorem arg7_eq (V : Valuation τ sig (Elt Ideal)) :
    after (ops (F := Ideal)) V (main_arg7 : DevRef τ sig) = V (main_arg7 : DevRef τ sig) := by
  after_results_simp
theorem arg8_eq (V : Valuation τ sig (Elt Ideal)) :
    after (ops (F := Ideal)) V (main_arg8 : DevRef τ sig) = V (main_arg8 : DevRef τ sig) := by
  after_results_simp

/-- Every weakly fair execution of the reference ends with the result at the composed stages, the arguments as launched. -/
theorem run (m' : (ℓ : Loc nD τ sig) → Buf (Elt Ideal) ℓ) (ρ' : Dev nD → PrngReg) :
    θ_run defs (onTc (τ := τ) (main (F := Ideal))) ⟨m', fun _ => 0, ρ'⟩ (fun r => ∀ c : Dev nD,
      r.2.mem ((c.tc : Thread nD τ).loc main_v46) = refOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m' ρ')

theorem frame (m' : (ℓ : Loc nD τ sig) → Buf (Elt Ideal) ℓ) (ρ' : Dev nD → PrngReg) :
    θ_run defs (onTc (τ := τ) (main (F := Ideal))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono (fun _ h c => (h c).2) (run m' ρ')

end Cert.ReferenceIdeal.Hand

end
-- ==== Proof.KI.HostVal.lean ====
import proofs.«108704_j53352083751414_1_alg».proof.Proof.Gen.KernelIdeal.Regions
import proofs.«108704_j53352083751414_1_alg».proof.Proof.Gen.ReferenceIdeal
import proofs.«108704_j53352083751414_1_alg».proof.Proof.Ref.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Hand (stXt stBdv stV64 stV1 stCol stLeaky stMean stVar stNorm stMid stTail)

/-! The array operations between the products, read as the reference's stages. -/
section Stretches

variable (X : Valuation τ sig (Elt Ideal))

theorem after0_v0 : StableHlo.after hostOps0 X (Proc.devRef .tc main_v0) = stBdv (X (Proc.devRef .tc main_arg1)) := by
  after_results
  rfl

theorem after0_v2 : StableHlo.after hostOps0 X (Proc.devRef .tc main_v2) = stCol (X (Proc.devRef .tc main_arg4)) (X (Proc.devRef .tc main_arg2)) := by
  after_results
  rfl

theorem after0_v6 : StableHlo.after hostOps0 X (Proc.devRef .tc main_v6)
    = stV64 (X (Proc.devRef .tc main_arg1)) (stXt (X (Proc.devRef .tc main_arg0)) (X (Proc.devRef .tc main_arg5))) := by
  after_results
  rfl

theorem after2_1_v9 : StableHlo.after hostOps2_1 (StableHlo.after hostOps2 X) (Proc.devRef .tc main_v9) = stLeaky (X (Proc.devRef .tc main_v8)) := by
  after_results
  rfl

theorem after2_3_v12 : StableHlo.after hostOps2_3 (StableHlo.after hostOps2_2 X) (Proc.devRef .tc main_v12) = stMean (X (Proc.devRef .tc main_v9)) := by
  after_results_simp
  rfl

theorem after2_3_v13 : StableHlo.after hostOps2_3 (StableHlo.after hostOps2_2 X) (Proc.devRef .tc main_v13) = stVar (X (Proc.devRef .tc main_v9)) := by
  after_results_simp
  rfl

theorem after2_4_v31 : StableHlo.after hostOps2_4 X (Proc.devRef .tc main_v31)
    = stV1 (X (Proc.devRef .tc main_arg1)) (Host.dotGeneral (F := Ideal) (φ₁ := .f32) (φ₂ := .f32) dot_S8192x64_S64x1_S8192x1_1_0_0_1_n_n none
        (stNorm (X (Proc.devRef .tc main_v9)) (X (Proc.devRef .tc main_v12)) (X (Proc.devRef .tc main_v13)) (X (Proc.devRef .tc main_arg7)) (X (Proc.devRef .tc main_arg8)))
        (X (Proc.devRef .tc main_arg6))) := by
  after_results_simp
  rfl

theorem after4_v40 : StableHlo.after hostOps4 X (Proc.devRef .tc main_v40) = stTail (X (Proc.devRef .tc main_v33)) := by
  after_results
  rfl

end Stretches

variable (m : (ℓ : Loc nD τ sig) → Buf (Elt Ideal) ℓ) (outs : Outs (F := Ideal)) (c : Dev nD)

/-! The valuations at the references the products and the stages read. -/
theorem hv6 : V1 m c main_v6 = stV64 (m ((c : Thread nD τ).loc main_arg1)) (stXt (m ((c : Thread nD τ).loc main_arg0)) (m ((c : Thread nD τ).loc main_arg5))) :=
  after0_v6 (V0 m c)

theorem hv0 : V1 m c main_v0 = stBdv (m ((c : Thread nD τ).loc main_arg1)) :=
  after0_v0 (V0 m c)

theorem hv2 : V1 m c main_v2 = stCol (m ((c : Thread nD τ).loc main_arg4)) (m ((c : Thread nD τ).loc main_arg2)) :=
  after0_v2 (V0 m c)

theorem V1_main_arg3 : V1 m c main_arg3 = m ((c : Thread nD τ).loc main_arg3) :=
  (V1_of m c main_arg3 (by decide)).trans <| rfl

theorem V2_main_arg3 : V2 m outs c main_arg3 = m ((c : Thread nD τ).loc main_arg3) :=
  (V2_of m outs c main_arg3 (by decide)).trans <| (V1_of m c main_arg3 (by decide)).trans <| rfl
theorem V2_main_v0 : V2 m outs c main_v0 = V1 m c main_v0 :=
  V2_of m outs c main_v0 (by decide)
theorem V2_main_v2 : V2 m outs c main_v2 = V1 m c main_v2 :=
  V2_of m outs c main_v2 (by decide)
theorem V2_main_v7 : V2 m outs c main_v7 = outs 2 main_v7 c :=
  Function.update_self _ _ _

theorem V3_main_v8 : V3 m outs c main_v8 = outs 3 main_v8 c :=
  Function.update_self _ _ _

theorem V5_main_v9 : V5 m outs c main_v9 = stLeaky (outs 3 main_v8 c) :=
  (after2_1_v9 (V3 m outs c)).trans (congrArg stLeaky (V3_main_v8 m outs c))

theorem hv31 : V8 m outs c main_v31
    = stMid (outs 3 main_v8 c) (m ((c : Thread nD τ).loc main_arg1)) (m ((c : Thread nD τ).loc main_arg7)) (m ((c : Thread nD τ).loc main_arg8)) (m ((c : Thread nD τ).loc main_arg6)) := by
  have h9 : V7 m outs c (Proc.devRef .tc main_v9) = stLeaky (outs 3 main_v8 c) :=
    (V7_of m outs c main_v9 (by decide)).trans <| (V6_of m outs c main_v9 (by decide)).trans <| (V5_main_v9 m outs c)
  have hμ : V7 m outs c (Proc.devRef .tc main_v12) = stMean (stLeaky (outs 3 main_v8 c)) :=
    (after2_3_v12 (V5 m outs c)).trans (congrArg stMean (V5_main_v9 m outs c))
  have hσ : V7 m outs c (Proc.devRef .tc main_v13) = stVar (stLeaky (outs 3 main_v8 c)) :=
    (after2_3_v13 (V5 m outs c)).trans (congrArg stVar (V5_main_v9 m outs c))
  have ha1 : V7 m outs c (Proc.devRef .tc main_arg1) = m ((c : Thread nD τ).loc main_arg1) :=
    (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans <| rfl
  have ha6 : V7 m outs c (Proc.devRef .tc main_arg6) = m ((c : Thread nD τ).loc main_arg6) :=
    (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans <| rfl
  have ha7 : V7 m outs c (Proc.devRef .tc main_arg7) = m ((c : Thread nD τ).loc main_arg7) :=
    (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans <| rfl
  have ha8 : V7 m outs c (Proc.devRef .tc main_arg8) = m ((c : Thread nD τ).loc main_arg8) :=
    (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans <| rfl
  have h := after2_4_v31 (V7 m outs c)
  rw [h9, hμ, hσ, ha1, ha6, ha7, ha8] at h
  exact h

theorem V8_main_arg3 : V8 m outs c main_arg3 = m ((c : Thread nD τ).loc main_arg3) :=
  (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide)).trans <| rfl
theorem V8_main_v0 : V8 m outs c main_v0 = V1 m c main_v0 :=
  (V8_of m outs c main_v0 (by decide)).trans <| (V7_of m outs c main_v0 (by decide)).trans <| (V6_of m outs c main_v0 (by decide)).trans <| (V5_of m outs c main_v0 (by decide)).trans <| (V4_of m outs c main_v0 (by decide)).trans <| (V3_of m outs c main_v0 (by decide)).trans <| (V2_of m outs c main_v0 (by decide))
theorem V8_main_v2 : V8 m outs c main_v2 = V1 m c main_v2 :=
  (V8_of m outs c main_v2 (by decide)).trans <| (V7_of m outs c main_v2 (by decide)).trans <| (V6_of m outs c main_v2 (by decide)).trans <| (V5_of m outs c main_v2 (by decide)).trans <| (V4_of m outs c main_v2 (by decide)).trans <| (V3_of m outs c main_v2 (by decide)).trans <| (V2_of m outs c main_v2 (by decide))

theorem V9_main_arg3 : V9 m outs c main_arg3 = m ((c : Thread nD τ).loc main_arg3) :=
  (V9_of m outs c main_arg3 (by decide)).trans (V8_main_arg3 m outs c)
theorem V9_main_v0 : V9 m outs c main_v0 = V1 m c main_v0 :=
  (V9_of m outs c main_v0 (by decide)).trans (V8_main_v0 m outs c)
theorem V9_main_v2 : V9 m outs c main_v2 = V1 m c main_v2 :=
  (V9_of m outs c main_v2 (by decide)).trans (V8_main_v2 m outs c)
theorem V9_main_v32 : V9 m outs c main_v32 = outs 9 main_v32 c :=
  Function.update_self _ _ _

theorem hv40 : V11 m outs c main_v40 = stTail (outs 10 main_v33 c) :=
  (after4_v40 (V10 m outs c)).trans (congrArg stTail (Function.update_self _ _ _))

end Cert.KernelIdeal.Hand

end
-- ==== Proof.KI.Blocks.lean ====
import Mathlib.Algebra.BigOperators.Fin
import Mathlib.Data.Fintype.BigOperators
import Mathlib.Logic.Equiv.Fin.Basic

open scoped BigOperators

namespace Cert.KernelIdeal.Hand

/-- A sum over `K * B` indices is the sum over its `K` runs of `B` of the runs' sums: pure rearrangement in a commutative monoid. -/
theorem sum_runs {M : Type*} [AddCommMonoid M] {N K B : ℕ} (hN : N = K * B) (f : Fin N → M) (p : Fin K → Fin B → M)
    (hp : ∀ (k : Fin K) (i : Fin B) (n : Fin N), n.val = k.val * B + i.val → p k i = f n) :
    ∑ k : Fin K, ∑ i : Fin B, p k i = ∑ n : Fin N, f n := by
  subst hN
  rw [← Equiv.sum_comp (finProdFinEquiv (m := K) (n := B)) f, Fintype.sum_prod_type]
  refine Finset.sum_congr rfl fun k _ => Finset.sum_congr rfl fun i _ => ?_
  refine hp k i _ ?_
  show i.val + B * k.val = k.val * B + i.val
  rw [Nat.mul_comm, Nat.add_comm]

/-- Four runs accumulated from zero one after the other. -/
theorem sum_four_runs {M : Type*} [AddCommMonoid M] {N B : ℕ} (hN : N = 4 * B) (f : Fin N → M) (p : Fin 4 → Fin B → M)
    (hp : ∀ (k : Fin 4) (i : Fin B) (n : Fin N), n.val = k.val * B + i.val → p k i = f n) :
    (((0 + ∑ i : Fin B, p 0 i) + ∑ i : Fin B, p 1 i) + ∑ i : Fin B, p 2 i) + ∑ i : Fin B, p 3 i = ∑ n : Fin N, f n := by
  rw [← sum_runs hN f p hp, Fin.sum_univ_four, zero_add]

end Cert.KernelIdeal.Hand
-- ==== Proof.KI.R0Val.lean ====
import proofs.«108704_j53352083751414_1_alg».proof.Proof.KI.R0Dat
import proofs.«108704_j53352083751414_1_alg».proof.Proof.KI.Blocks
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem k0_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem k0_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem k0_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem k0_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

theorem k0_pay1_apply (p : Fin 1024) (q : Fin 64) : (k0_pay1 (F := Ideal)) (ix2 p q) = 0 := by
  unfold k0_pay1
  rw [shapeCast_self]
  exact Ideal.ofBits_zero_f32

/-- The body's update at an entry: the accumulator plus the sum over the tile's rows of the two blocks' products. -/
theorem k0_pay2_apply (x0 : Vec Ideal S2048x1024 .f32) (x1 : Vec Ideal S2048x64 .f32) (acc : Vec Ideal S1024x64 .f32)
    (p : Fin 1024) (q : Fin 64) :
    k0_pay2 x0 x1 acc (ix2 p q) = acc (ix2 p q) + ∑ i : Fin 2048, x0 (ix2 i p) * x1 (ix2 i q) := by
  unfold k0_pay2
  rw [shapeCast_self, shapeCast_self]
  rw [addf_apply]
  refine congrArg (acc (ix2 p q) + ·) ?_
  simp only [matmul]
  rw [Ideal.matmul_constant_zero_apply,
    ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : @Eq EReal (transpose S1024x2048 [1, 0] (truncf (F := Ideal) FTy.bf16 x0 bitsLt_bf16_f32) transposes_S2048x1024_p1_0_S1024x2048
      (dot_S1024x2048_S2048x64_S1024x64_1_0_0_1_n_n.lhsIdx (ix2 p q)
        ((contrEquiv1 dot_S1024x2048_S2048x64_S1024x64_1_0_0_1_n_n 2048 rfl rfl).symm k))) (x0 (ix2 k p)) := by
    refine (transpose_apply [1, 0] _ transposes_S2048x1024_p1_0_S1024x2048 _ (ix2 k p) fun b => ?_).trans rfl
    match b with
    | ⟨0, _⟩ =>
      show p.val = (dot_S1024x2048_S2048x64_S1024x64_1_0_0_1_n_n.lhsIdx (ix2 p q) _ 0).val
      exact (k0_lhs_0 (ix2 p q) _).symm
    | ⟨1, _⟩ =>
      show k.val = (dot_S1024x2048_S2048x64_S1024x64_1_0_0_1_n_n.lhsIdx (ix2 p q) _ 1).val
      exact ((k0_lhs_1 (ix2 p q) _).trans hk).symm
  have er : dot_S1024x2048_S2048x64_S1024x64_1_0_0_1_n_n.rhsIdx (ix2 p q)
      ((contrEquiv1 dot_S1024x2048_S2048x64_S1024x64_1_0_0_1_n_n 2048 rfl rfl).symm k) = ix2 k q :=
    funext fun a => Fin.ext (by
      match a with
      | ⟨0, _⟩ => exact (k0_rhs_0 (ix2 p q) _).trans hk
      | ⟨1, _⟩ => exact k0_rhs_1 (ix2 p q) _)
  rw [el, er]
  rfl

theorem index_facts0 : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

abbrev harr0 (V : EntryVal Ideal) (c : Dev nD) : Vec Ideal S8192x4096 .f32 := V c main_arg3
abbrev varr0 (V : EntryVal Ideal) (c : Dev nD) : Vec Ideal S8192x64 .f32 := V c main_v6
abbrev hblk0 (V : EntryVal Ideal) (c : Dev nD) (t : Fin cfg0.N) : Vec Ideal S2048x1024 .f32 := iblk0 V c 0 t
abbrev vblk0 (V : EntryVal Ideal) (c : Dev nD) (t : Fin cfg0.N) : Vec Ideal S2048x64 .f32 := iblk0 V c 1 t

theorem hblk0_apply (V : EntryVal Ideal) (c : Dev nD) (t : Fin cfg0.N) (i : Fin 2048) (x : Fin 1024)
    (n : Fin 8192) (e : Fin 4096) (hn : n.val = 2048 * (t.val % 4) + i.val) (he : e.val = 1024 * (t.val / 4) + x.val) :
    hblk0 V c t (ix2 i x) = harr0 V c (ix2 n e) := by
  obtain ⟨h0, h1, -⟩ := index_facts0 t
  show iblk0 V c 0 t (ix2 i x) = _
  unfold iblk0
  rw [View.read_apply]
  show harr0 V c (((cfg0.win 0).blk t).view.emb (ix2 i x)) = _
  refine congrArg (harr0 V c) (funext fun a => Fin.ext ?_)
  match a with
  | ⟨0, _⟩ => show win0_0.index t (0 : Fin 2) * 2048 + 1 * i.val = n.val; rw [h0, hn]; omega
  | ⟨1, _⟩ => show win0_0.index t (1 : Fin 2) * 1024 + 1 * x.val = e.val; rw [h1, he]; omega

theorem vblk0_apply (V : EntryVal Ideal) (c : Dev nD) (t : Fin cfg0.N) (i : Fin 2048) (j : Fin 64)
    (n : Fin 8192) (hn : n.val = 2048 * (t.val % 4) + i.val) :
    vblk0 V c t (ix2 i j) = varr0 V c (ix2 n j) := by
  obtain ⟨-, -, h0, h1, -⟩ := index_facts0 t
  show iblk0 V c 1 t (ix2 i j) = _
  unfold iblk0
  rw [View.read_apply]
  show varr0 V c (((cfg0.win 1).blk t).view.emb (ix2 i j)) = _
  refine congrArg (varr0 V c) (funext fun a => Fin.ext ?_)
  match a with
  | ⟨0, _⟩ => show win0_1.index t (0 : Fin 2) * 2048 + 1 * i.val = n.val; rw [h0, hn]; omega
  | ⟨1, _⟩ => show win0_1.index t (1 : Fin 2) * S2048x64.size 1 + 1 * j.val = j.val; rw [h1]; omega

def pt0 (g k : Fin 4) : Fin cfg0.N :=
  ⟨4 * g.val + k.val, by rw [show cfg0.N = 16 from N_0]; have := g.isLt; have := k.isLt; omega⟩
theorem pt0_val (g k : Fin 4) : (pt0 g k).val = 4 * g.val + k.val := rfl
theorem pt0_mod (g k : Fin 4) : (pt0 g k).val % 4 = k.val := by rw [pt0_val]; have := k.isLt; omega
theorem pt0_div (g k : Fin 4) : (pt0 g k).val / 4 = g.val := by rw [pt0_val]; have := k.isLt; omega

abbrev prod0 (V : EntryVal Ideal) (c : Dev nD) (t : Fin cfg0.N) (p : Fin 1024) (q : Fin 64) : EReal :=
  ∑ i : Fin 2048, hblk0 V c t (ix2 i p) * vblk0 V c t (ix2 i q)

theorem accAt0_congr (V : EntryVal Ideal) (c : Dev nD) {n n' : ℕ} (e : n = n') (h : n < cfg0.N) (h' : n' < cfg0.N) :
    accAt0 V c n h = accAt0 V c n' h' := by subst e; rfl

theorem acc0_first (V : EntryVal Ideal) (c : Dev nD) (g : Fin 4) (p : Fin 1024) (q : Fin 64) :
    (accAt0 V c (pt0 g 0).val (pt0 g 0).isLt) (ix2 p q) = 0 + prod0 V c (pt0 g 0) p q := by
  rw [accAt0_reset V c (pt0 g 0) (pt0_mod g 0)]
  refine (k0_pay2_apply (hblk0 V c (pt0 g 0)) (vblk0 V c (pt0 g 0)) (k0_pay1 (F := Ideal)) p q).trans ?_
  rw [k0_pay1_apply]

theorem acc0_step (V : EntryVal Ideal) (c : Dev nD) (g k k' : Fin 4) (hk : k'.val = k.val + 1) (p : Fin 1024) (q : Fin 64)
    (S : EReal) (hS : (accAt0 V c (pt0 g k).val (pt0 g k).isLt) (ix2 p q) = S) :
    (accAt0 V c (pt0 g k').val (pt0 g k').isLt) (ix2 p q) = S + prod0 V c (pt0 g k') p q := by
  rw [accAt0_acc V c (pt0 g k') (by rw [pt0_mod, hk]; omega)]
  refine (k0_pay2_apply (hblk0 V c (pt0 g k')) (vblk0 V c (pt0 g k'))
    (accAt0 V c ((pt0 g k').val - 1) (Nat.lt_of_le_of_lt (Nat.sub_le _ _) (pt0 g k').isLt)) p q).trans ?_
  rw [accAt0_congr V c (show (pt0 g k').val - 1 = (pt0 g k).val by rw [pt0_val, pt0_val, hk]; omega) _ (pt0 g k).isLt, hS]

theorem acc0_last (V : EntryVal Ideal) (c : Dev nD) (g : Fin 4) (p : Fin 1024) (q : Fin 64) :
    (accAt0 V c (pt0 g 3).val (pt0 g 3).isLt) (ix2 p q)
      = (((0 + prod0 V c (pt0 g 0) p q) + prod0 V c (pt0 g 1) p q) + prod0 V c (pt0 g 2) p q) + prod0 V c (pt0 g 3) p q :=
  acc0_step V c g 2 3 rfl p q _ (acc0_step V c g 1 2 rfl p q _ (acc0_step V c g 0 1 rfl p q _ (acc0_first V c g p q)))

abbrev prodT0 (V : EntryVal Ideal) (c : Dev nD) : S4096x64.Idx → EReal := fun i =>
  ∑ n : Fin 8192, harr0 V c (ix2 n (i 0 : Fin 4096)) * varr0 V c (ix2 n (i 1 : Fin 64))

theorem oblk0_emb (t : Fin cfg0.N) (p : Fin 1024) (q : Fin 64) (e : Fin 4096) (he : e.val = 1024 * (t.val / 4) + p.val) :
    (((cfg0.win 2).blk t).view.emb (ix2 p q) : S4096x64.Idx) = ix2 e q := by
  obtain ⟨-, -, -, -, h0, h1⟩ := index_facts0 t
  refine funext fun a => Fin.ext ?_
  match a with
  | ⟨0, _⟩ => show win0_2.index t (0 : Fin 2) * 1024 + 1 * p.val = e.val; rw [h0, he]; omega
  | ⟨1, _⟩ => show win0_2.index t (1 : Fin 2) * S1024x64.size 1 + 1 * q.val = q.val; rw [h1]; omega

/-- What a run's last point writes back is its block of the whole product: the four tile sums are the four runs of the contraction. -/
theorem flushed0_eq (V : EntryVal Ideal) (c : Dev nD) (t : Fin cfg0.N) (hf : (cfg0.win 2).flush t = true) :
    (dat0 V c).flushed 2 t = ((cfg0.win 2).blk t).view.read (Elt Ideal) (prodT0 V c) := by
  have h3 : t.val % 4 = 3 := (flush0_2 t).mp hf
  have hN : cfg0.N = 16 := N_0
  obtain ⟨g, rfl⟩ : ∃ g : Fin 4, t = pt0 g 3 :=
    ⟨⟨t.val / 4, by have := t.isLt; omega⟩, Fin.ext (by show t.val = 4 * (t.val / 4) + 3; omega)⟩
  show (cfg0.win 2).cut (grid0.coords (pt0 g 3)) ((dat0 V c).after 2 (pt0 g 3)) = _
  rw [after0_2]
  refine funext fun (y : S1024x64.Idx) => ?_
  obtain ⟨p, q, rfl⟩ : ∃ (p : Fin 1024) (q : Fin 64), y = ix2 p q := ⟨y 0, y 1, eq_ix2 y⟩
  rw [View.read_apply]
  show (accAt0 V c (pt0 g 3).val (pt0 g 3).isLt) (ix2 p q) = prodT0 V c (((cfg0.win 2).blk (pt0 g 3)).view.emb (ix2 p q))
  have hg : g.val < 4 := g.isLt
  rw [acc0_last, oblk0_emb (pt0 g 3) p q ⟨1024 * g.val + p.val, by have := p.isLt; omega⟩ (by rw [pt0_div])]
  exact sum_four_runs (N := 8192) (B := 2048) rfl
    (fun n => harr0 V c (ix2 n (⟨1024 * g.val + p.val, by have := p.isLt; omega⟩ : Fin 4096)) * varr0 V c (ix2 n q))
    (fun k i => hblk0 V c (pt0 g k) (ix2 i p) * vblk0 V c (pt0 g k) (ix2 i q))
    (fun k i n hn => by
      rw [hblk0_apply V c (pt0 g k) i p n ⟨1024 * g.val + p.val, by have := p.isLt; omega⟩
          (by rw [pt0_mod]; omega) (by rw [pt0_div]),
        vblk0_apply V c (pt0 g k) i q n (by rw [pt0_mod]; omega)])

theorem covered0 (i : S4096x64.Idx) :
    ∃ t : Fin cfg0.N, (cfg0.win 2).flush t = true ∧ i ∈ ((cfg0.win 2).blk t).view.set := by
  have hi0 : (i 0).val < 4096 := idx2_lt0 i
  obtain ⟨g, hg⟩ : ∃ g : Fin 4, g.val = (i 0).val / 1024 := ⟨⟨(i 0).val / 1024, by omega⟩, rfl⟩
  refine ⟨pt0 g 3, (flush0_2 _).mpr (pt0_mod g 3), ?_⟩
  obtain ⟨-, -, -, -, h0, h1⟩ := index_facts0 (pt0 g 3)
  rw [pt0_div] at h0
  show i ∈ ((View.whole main_v7).slice (win0_2.rect (pt0 g 3))).set
  rw [View.set_slice_whole, Rect.mem_set_unit]
  intro a
  match a with
  | ⟨0, _⟩ =>
    show win0_2.index (pt0 g 3) (0 : Fin 2) * 1024 ≤ (i 0).val ∧ (i 0).val < win0_2.index (pt0 g 3) (0 : Fin 2) * 1024 + 1024
    rw [h0]; omega
  | ⟨1, _⟩ =>
    show win0_2.index (pt0 g 3) (1 : Fin 2) * S1024x64.size 1 ≤ (i 1).val
      ∧ (i 1).val < win0_2.index (pt0 g 3) (1 : Fin 2) * S1024x64.size 1 + S1024x64.size 1
    rw [h1, Nat.zero_mul, Nat.zero_add]
    exact ⟨Nat.zero_le _, (i 1).isLt⟩

/-- The result array after the region: the transposed product of the two matrices as the region found them. -/
theorem final0_fun (V : EntryVal Ideal) (c : Dev nD) : (dat0 V c).arrAt 2 cfg0.N = prodT0 V c :=
  (dat0 V c).arrAt_eq_of_cover 2 (prodT0 V c) (fun t hf => flushed0_eq V c t hf) covered0

theorem final0 (V : EntryVal Ideal) (c : Dev nD) (e : Fin 4096) (j : Fin 64) :
    ((dat0 V c).arrAt 2 cfg0.N : S4096x64.Idx → EReal) (ix2 e j) = ∑ n : Fin 8192, harr0 V c (ix2 n e) * varr0 V c (ix2 n j) :=
  congrFun (final0_fun V c) (ix2 e j)

end Cert.KernelIdeal.Hand

end
-- ==== Proof.KI.R1Val.lean ====
import proofs.«108704_j53352083751414_1_alg».proof.Proof.KI.R1Dat
import proofs.«108704_j53352083751414_1_alg».proof.Proof.KI.Blocks
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem lhs_k1_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide),
    dif_pos (show (0 : Fin S2048x1024.rank) ∈ dot_S2048x1024_S1024x64_S2048x64_1_0_0_1_n_n.lhsNonContracting by decide)]
  rfl
theorem lhs_k1_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs_k1_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs_k1_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide),
    dif_pos (show (1 : Fin S1024x64.rank) ∈ dot_S2048x1024_S1024x64_S2048x64_1_0_0_1_n_n.rhsNonContracting by decide)]
  rfl

theorem matmul_k1_apply (A : FVec Ideal S2048x1024 .bf16) (B : FVec Ideal S1024x64 .bf16) (p : Fin 2048) (q : Fin 64) :
    matmul dot_S2048x1024_S1024x64_S2048x64_1_0_0_1_n_n none A B (constant (F := Ideal) S2048x64 .f32 0x00000000#32) (ix2 p q)
      = ∑ k : Fin 1024, A (ix2 p k) * B (ix2 k q) := by
  simp only [matmul]
  rw [Ideal.matmul_constant_zero_apply,
    ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p q)
      ((contrEquiv1 dot_S2048x1024_S1024x64_S2048x64_1_0_0_1_n_n 1024 rfl rfl).symm k) = ix2 p k :=
    funext fun a => Fin.ext (by
      match a with
      | ⟨0, _⟩ => exact lhs_k1_0 _ _
      | ⟨1, _⟩ => exact (lhs_k1_1 _ _).trans hk)
  have er : dot_S2048x1024_S1024x64_S2048x64_1_0_0_1_n_n.rhsIdx (ix2 p q)
      ((contrEquiv1 dot_S2048x1024_S1024x64_S2048x64_1_0_0_1_n_n 1024 rfl rfl).symm k) = ix2 k q :=
    funext fun a => Fin.ext (by
      match a with
      | ⟨0, _⟩ => exact (rhs_k1_0 _ _).trans hk
      | ⟨1, _⟩ => exact rhs_k1_1 _ _)
  rw [el, er]

theorem broadcastTo_col_k1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k1_pay1_apply (p : Fin 2048) (q : Fin 64) : k1_pay1 (F := Ideal) (ix2 p q) = 0 := by
  unfold k1_pay1
  simp only [shapeCast_self]
  exact Ideal.ofBits_zero_f32

/-- The body's update at an entry: the accumulator plus the sum over the tile's columns of the entry of `H`, scaled by its
    row's and its column's factors, times the entry of `M`. -/
theorem k1_pay2_apply (H : Vec Ideal S2048x1024 .f32) (dv : Vec Ideal S2048x1 .f32) (cl : Vec Ideal S1x1024 .f32)
    (M : Vec Ideal S1024x64 .f32) (acc : Vec Ideal S2048x64 .f32) (p : Fin 2048) (q : Fin 64) :
    k1_pay2 (F := Ideal) H dv cl M acc (ix2 p q)
      = acc (ix2 p q) + ∑ i : Fin 1024, ((H (ix2 p i) * dv (ix2 p (0 : Fin 1))) * cl (ix2 (0 : Fin 1) i)) * M (ix2 i q) := by
  unfold k1_pay2
  simp only [shapeCast_self]
  refine (addf_apply _ _ _).trans ?_
  refine congrArg (acc (ix2 p q) + ·) ?_
  refine (matmul_k1_apply _ _ p q).trans ?_
  refine Finset.sum_congr rfl fun i _ => ?_
  show (H (ix2 p i) * broadcastTo S2048x1024 dv broadcasts_S2048x1_S2048x1024 (ix2 p i))
      * broadcastTo S2048x1024 cl broadcasts_S1x1024_S2048x1024 (ix2 p i) * M (ix2 i q) = _
  rw [broadcastTo_col_k1_apply, broadcastTo_1b_ab_apply]

abbrev hblk1 (V : EntryVal Ideal) (c : Dev nD) (t : Fin cfg1.N) : Vec Ideal S2048x1024 .f32 := iblk1 V c 0 t
abbrev dblk1 (V : EntryVal Ideal) (c : Dev nD) (t : Fin cfg1.N) : Vec Ideal S2048x1 .f32 := iblk1 V c 1 t
abbrev cblk1 (V : EntryVal Ideal) (c : Dev nD) (t : Fin cfg1.N) : Vec Ideal S1x1024 .f32 := iblk1 V c 2 t
abbrev mblk1 (V : EntryVal Ideal) (c : Dev nD) (t : Fin cfg1.N) : Vec Ideal S1024x64 .f32 := iblk1 V c 3 t

abbrev harr1 (V : EntryVal Ideal) (c : Dev nD) : Vec Ideal S8192x4096 .f32 := V c main_arg3
abbrev darr1 (V : EntryVal Ideal) (c : Dev nD) : Vec Ideal S8192x1 .f32 := V c main_v0
abbrev carr1 (V : EntryVal Ideal) (c : Dev nD) : Vec Ideal S1x4096 .f32 := V c main_v2
abbrev marr1 (V : EntryVal Ideal) (c : Dev nD) : Vec Ideal S4096x64 .f32 := V c main_v7

theorem idx_facts1 : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = t.val % 4 ∧ win1_3.index t (1 : Fin 2) = 0
    ∧ win1_4.index t (0 : Fin 2) = t.val / 4 ∧ win1_4.index t (1 : Fin 2) = 0 :=
  (by decide +kernel : ∀ t : Fin grid1.N, _)

theorem hblk1_apply (V : EntryVal Ideal) (c : Dev nD) (t : Fin cfg1.N) (p : Fin 2048) (i : Fin 1024) (n : Fin 8192) (e : Fin 4096)
    (hn : n.val = 2048 * (t.val / 4) + p.val) (he : e.val = 1024 * (t.val % 4) + i.val) :
    hblk1 V c t (ix2 p i) = harr1 V c (ix2 n e) := by
  obtain ⟨e0, e1, -⟩ := idx_facts1 t
  show V c main_arg3 (((cfg1.win 0).blk t).view.emb (ix2 p i)) = V c main_arg3 (ix2 n e)
  refine congrArg (V c main_arg3) (funext fun a => Fin.ext ?_)
  match a with
  | ⟨0, _⟩ => show win1_0.index t (0 : Fin 2) * 2048 + 1 * p.val = n.val; omega
  | ⟨1, _⟩ => show win1_0.index t (1 : Fin 2) * 1024 + 1 * i.val = e.val; omega

theorem dblk1_apply (V : EntryVal Ideal) (c : Dev nD) (t : Fin cfg1.N) (p : Fin 2048) (n : Fin 8192)
    (hn : n.val = 2048 * (t.val / 4) + p.val) :
    dblk1 V c t (ix2 p (0 : Fin 1)) = darr1 V c (ix2 n (0 : Fin 1)) := by
  obtain ⟨-, -, e0, e1, -⟩ := idx_facts1 t
  show V c main_v0 (((cfg1.win 1).blk t).view.emb (ix2 p (0 : Fin 1))) = V c main_v0 (ix2 n (0 : Fin 1))
  refine congrArg (V c main_v0) (funext fun a => Fin.ext ?_)
  match a with
  | ⟨0, _⟩ => show win1_1.index t (0 : Fin 2) * 2048 + 1 * p.val = n.val; omega
  | ⟨1, _⟩ => show win1_1.index t (1 : Fin 2) * 1 + 1 * 0 = 0; omega

theorem cblk1_apply (V : EntryVal Ideal) (c : Dev nD) (t : Fin cfg1.N) (i : Fin 1024) (e : Fin 4096)
    (he : e.val = 1024 * (t.val % 4) + i.val) :
    cblk1 V c t (ix2 (0 : Fin 1) i) = carr1 V c (ix2 (0 : Fin 1) e) := by
  obtain ⟨-, -, -, -, e0, e1, -⟩ := idx_facts1 t
  show V c main_v2 (((cfg1.win 2).blk t).view.emb (ix2 (0 : Fin 1) i)) = V c main_v2 (ix2 (0 : Fin 1) e)
  refine congrArg (V c main_v2) (funext fun a => Fin.ext ?_)
  match a with
  | ⟨0, _⟩ => show win1_2.index t (0 : Fin 2) * 1 + 1 * 0 = 0; omega
  | ⟨1, _⟩ => show win1_2.index t (1 : Fin 2) * 1024 + 1 * i.val = e.val; omega

theorem mblk1_apply (V : EntryVal Ideal) (c : Dev nD) (t : Fin cfg1.N) (i : Fin 1024) (q : Fin 64) (e : Fin 4096)
    (he : e.val = 1024 * (t.val % 4) + i.val) :
    mblk1 V c t (ix2 i q) = marr1 V c (ix2 e q) := by
  obtain ⟨-, -, -, -, -, -, e0, e1, -⟩ := idx_facts1 t
  show V c main_v7 (((cfg1.win 3).blk t).view.emb (ix2 i q)) = V c main_v7 (ix2 e q)
  refine congrArg (V c main_v7) (funext fun a => Fin.ext ?_)
  match a with
  | ⟨0, _⟩ => show win1_3.index t (0 : Fin 2) * 1024 + 1 * i.val = e.val; omega
  | ⟨1, _⟩ => show win1_3.index t (1 : Fin 2) * S1024x64.size (1 : Fin 2) + 1 * q.val = q.val; rw [e1]; omega

abbrev bprod1 (V : EntryVal Ideal) (c : Dev nD) (t : Fin cfg1.N) (p : Fin 2048) (q : Fin 64) : EReal :=
  ∑ i : Fin 1024, ((hblk1 V c t (ix2 p i) * dblk1 V c t (ix2 p (0 : Fin 1))) * cblk1 V c t (ix2 (0 : Fin 1) i)) * mblk1 V c t (ix2 i q)

theorem acc1_first (V : EntryVal Ideal) (c : Dev nD) (n : ℕ) (h : n < cfg1.N) (h0 : n % 4 = 0) (p : Fin 2048) (q : Fin 64) :
    accAt1 V c n h (ix2 p q) = 0 + bprod1 V c ⟨n, h⟩ p q := by
  rw [show accAt1 V c n h = _ from accAt1_reset V c ⟨n, h⟩ h0]
  refine (k1_pay2_apply (hblk1 V c ⟨n, h⟩) (dblk1 V c ⟨n, h⟩) (cblk1 V c ⟨n, h⟩) (mblk1 V c ⟨n, h⟩) (k1_pay1 (F := Ideal)) p q).trans ?_
  rw [k1_pay1_apply]

theorem acc1_step (V : EntryVal Ideal) (c : Dev nD) (n : ℕ) (h : n + 1 < cfg1.N) (h0 : ¬(n + 1) % 4 = 0) (p : Fin 2048) (q : Fin 64) :
    accAt1 V c (n + 1) h (ix2 p q) = accAt1 V c n (Nat.lt_of_succ_lt h) (ix2 p q) + bprod1 V c ⟨n + 1, h⟩ p q := by
  rw [show accAt1 V c (n + 1) h = _ from accAt1_acc V c ⟨n + 1, h⟩ h0]
  exact k1_pay2_apply (hblk1 V c ⟨n + 1, h⟩) (dblk1 V c ⟨n + 1, h⟩) (cblk1 V c ⟨n + 1, h⟩) (mblk1 V c ⟨n + 1, h⟩)
    (accAt1 V c n (Nat.lt_of_succ_lt h)) p q

theorem acc1_run (V : EntryVal Ideal) (c : Dev nD) (b : ℕ) (hb : b % 4 = 0) (h : b + 3 < cfg1.N) (p : Fin 2048) (q : Fin 64) :
    accAt1 V c (b + 3) h (ix2 p q)
      = (((0 + bprod1 V c ⟨b, by omega⟩ p q) + bprod1 V c ⟨b + 1, by omega⟩ p q) + bprod1 V c ⟨b + 2, by omega⟩ p q)
        + bprod1 V c ⟨b + 3, h⟩ p q := by
  have h0 : b < cfg1.N := by omega
  have h1 : b + 1 < cfg1.N := by omega
  have h2 : b + 2 < cfg1.N := by omega
  have e0 := acc1_first V c b h0 hb p q
  have e1 := acc1_step V c b h1 (by omega) p q
  have e2 := acc1_step V c (b + 1) h2 (by omega) p q
  have e3 := acc1_step V c (b + 2) h (by omega) p q
  exact e3.trans (congrArg (· + bprod1 V c ⟨b + 3, h⟩ p q) (e2.trans (congrArg (· + bprod1 V c ⟨b + 2, h2⟩ p q)
    (e1.trans (congrArg (· + bprod1 V c ⟨b + 1, h1⟩ p q) e0)))))

abbrev zterm1 (V : EntryVal Ideal) (c : Dev nD) (n : Fin 8192) (j : Fin 64) (e : Fin 4096) : EReal :=
  ((harr1 V c (ix2 n e) * darr1 V c (ix2 n (0 : Fin 1))) * carr1 V c (ix2 (0 : Fin 1) e)) * marr1 V c (ix2 e j)

abbrev Z1 (V : EntryVal Ideal) (c : Dev nD) : Vec Ideal S8192x64 .f32 := fun z =>
  ∑ e : Fin 4096, zterm1 V c ⟨(z 0).val, idx2_lt0 z⟩ ⟨(z 1).val, idx2_lt1 z⟩ e

/-- After the fourth point of a run the accumulator holds the whole contraction: the four tile sums are its four runs. -/
theorem accAt1_flush (V : EntryVal Ideal) (c : Dev nD) (t : Fin cfg1.N) (h3 : t.val % 4 = 3) (p : Fin 2048) (q : Fin 64)
    (n : Fin 8192) (hn : n.val = 2048 * (t.val / 4) + p.val) :
    accAt1 V c t.val t.isLt (ix2 p q) = ∑ e : Fin 4096, zterm1 V c n q e := by
  have hN : cfg1.N = 16 := N_1
  obtain ⟨tv, ht⟩ := t
  obtain ⟨b, rfl⟩ : ∃ b, tv = b + 3 := ⟨tv - 3, by have : tv % 4 = 3 := h3; omega⟩
  have h3' : (b + 3) % 4 = 3 := h3
  have hn' : n.val = 2048 * ((b + 3) / 4) + p.val := hn
  have hb4 : b % 4 = 0 := by omega
  refine (acc1_run V c b hb4 ht p q).trans ?_
  refine sum_four_runs (N := 4096) (B := 1024) rfl (zterm1 V c n q)
    (fun k i => ((hblk1 V c ⟨b + k.val, by have := k.isLt; omega⟩ (ix2 p i)
        * dblk1 V c ⟨b + k.val, by have := k.isLt; omega⟩ (ix2 p (0 : Fin 1)))
        * cblk1 V c ⟨b + k.val, by have := k.isLt; omega⟩ (ix2 (0 : Fin 1) i))
        * mblk1 V c ⟨b + k.val, by have := k.isLt; omega⟩ (ix2 i q)) ?_
  intro k i e he
  have hk := k.isLt
  have hg : n.val = 2048 * ((b + k.val) / 4) + p.val := by omega
  have hc : e.val = 1024 * ((b + k.val) % 4) + i.val := by omega
  show ((hblk1 V c ⟨b + k.val, _⟩ (ix2 p i) * dblk1 V c ⟨b + k.val, _⟩ (ix2 p (0 : Fin 1)))
      * cblk1 V c ⟨b + k.val, _⟩ (ix2 (0 : Fin 1) i)) * mblk1 V c ⟨b + k.val, _⟩ (ix2 i q) = zterm1 V c n q e
  rw [hblk1_apply V c ⟨b + k.val, _⟩ p i n e hg hc, dblk1_apply V c ⟨b + k.val, _⟩ p n hg,
    cblk1_apply V c ⟨b + k.val, _⟩ i e hc, mblk1_apply V c ⟨b + k.val, _⟩ i q e hc]

theorem accAt1_flush_idx (V : EntryVal Ideal) (c : Dev nD) (t : Fin cfg1.N) (h3 : t.val % 4 = 3) (y : S2048x64.Idx) (z : S8192x64.Idx)
    (h0 : (z 0).val = 2048 * (t.val / 4) + (y 0).val) (h1 : (z 1).val = (y 1).val) :
    accAt1 V c t.val t.isLt y = Z1 V c z := by
  obtain ⟨p, q, rfl⟩ : ∃ (p : Fin 2048) (q : Fin 64), y = ix2 p q := ⟨y 0, y 1, eq_ix2 y⟩
  have hq : (⟨(z 1).val, idx2_lt1 z⟩ : Fin 64) = q := Fin.ext h1
  show _ = ∑ e : Fin 4096, zterm1 V c ⟨(z 0).val, idx2_lt0 z⟩ ⟨(z 1).val, idx2_lt1 z⟩ e
  rw [hq]
  exact accAt1_flush V c t h3 p q ⟨(z 0).val, idx2_lt0 z⟩ h0

theorem flushed1_eq (V : EntryVal Ideal) (c : Dev nD) (t : Fin cfg1.N) (hf : (cfg1.win 4).flush t = true) :
    (dat1 V c).flushed 4 t = ((cfg1.win 4).blk t).view.read (Elt Ideal) (Z1 V c) := by
  have h3 : t.val % 4 = 3 := (flush1_4 t).mp hf
  obtain ⟨-, -, -, -, -, -, -, -, e0, e1⟩ := idx_facts1 t
  show (cfg1.win 4).cut (grid1.coords t) ((dat1 V c).after 4 t) = _
  rw [after1_4]
  funext y
  show accAt1 V c t.val t.isLt ((cfg1.win 4).xinj (grid1.coords t) y) = Z1 V c (((cfg1.win 4).blk t).view.emb y)
  refine accAt1_flush_idx V c t h3 _ _ ?_ ?_
  · show win1_4.index t (0 : Fin 2) * 2048 + 1 * (y 0).val = 2048 * (t.val / 4) + (y 0).val; omega
  · show win1_4.index t (1 : Fin 2) * S2048x64.size (1 : Fin 2) + 1 * (y 1).val = (y 1).val; rw [e1]; omega

theorem cover1 (i : S8192x64.Idx) : ∃ t : Fin cfg1.N, (cfg1.win 4).flush t = true ∧ i ∈ ((cfg1.win 4).blk t).view.set := by
  have hN : cfg1.N = 16 := N_1
  have hi0 : (i 0).val < 8192 := idx2_lt0 i
  have hi1 : (i 1).val < S2048x64.size (1 : Fin 2) := idx2_lt1 i
  obtain ⟨t, htv⟩ : ∃ t : Fin cfg1.N, t.val = 4 * ((i 0).val / 2048) + 3 := ⟨⟨4 * ((i 0).val / 2048) + 3, by omega⟩, rfl⟩
  obtain ⟨-, -, -, -, -, -, -, -, e0, e1⟩ := idx_facts1 t
  refine ⟨t, (flush1_4 t).mpr (by omega), ?_⟩
  show i ∈ ((View.whole main_v8).slice (win1_4.rect t)).set
  rw [View.set_slice_whole, Rect.mem_set_unit]
  intro a
  match a with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * S2048x64.size (1 : Fin 2) ≤ (i 1).val
      ∧ (i 1).val < win1_4.index t (1 : Fin 2) * S2048x64.size (1 : Fin 2) + S2048x64.size (1 : Fin 2)
    rw [e1]; omega

/-- The result array after the region: the product of the scaled incidence matrix with `M` as the region found them. -/
theorem final1_arr (V : EntryVal Ideal) (c : Dev nD) : (dat1 V c).arrAt 4 cfg1.N = Z1 V c :=
  (dat1 V c).arrAt_eq_of_cover 4 (Z1 V c) (flushed1_eq V c) cover1

theorem final1 (V : EntryVal Ideal) (c : Dev nD) (n : Fin 8192) (j : Fin 64) :
    ((dat1 V c).arrAt 4 cfg1.N : Vec Ideal S8192x64 .f32) (ix2 n j)
      = ∑ e : Fin 4096, ((harr1 V c (ix2 n e) * darr1 V c (ix2 n (0 : Fin 1))) * carr1 V c (ix2 (0 : Fin 1) e)) * marr1 V c (ix2 e j) :=
  congrFun (final1_arr V c) (ix2 n j)

end Cert.KernelIdeal.Hand

end
-- ==== Proof.KI.R2Val.lean ====
import proofs.«108704_j53352083751414_1_alg».proof.Proof.KI.R2Dat
import proofs.«108704_j53352083751414_1_alg».proof.Proof.KI.Blocks
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem k2_lhs_0 (i : S1024x1.Idx) (q : dot_S1024x2048_S2048x1_S1024x1_1_0_0_1_n_n.contr.Idx) :
    (dot_S1024x2048_S2048x1_S1024x1_1_0_0_1_n_n.lhsIdx i q 0).val = (i 0).val := by
  unfold DotDims.lhsIdx
  rw [dif_neg (show ¬(0 : Fin S1024x2048.rank) ∈ dot_S1024x2048_S2048x1_S1024x1_1_0_0_1_n_n.lhsBatch by decide),
    dif_pos (show (0 : Fin S1024x2048.rank) ∈ dot_S1024x2048_S2048x1_S1024x1_1_0_0_1_n_n.lhsNonContracting by decide)]
  rfl
theorem k2_lhs_1 (i : S1024x1.Idx) (q : dot_S1024x2048_S2048x1_S1024x1_1_0_0_1_n_n.contr.Idx) :
    (dot_S1024x2048_S2048x1_S1024x1_1_0_0_1_n_n.lhsIdx i q 1).val = (q ⟨0, by decide⟩).val :=
  dot_S1024x2048_S2048x1_S1024x1_1_0_0_1_n_n.lhsIdx_val_of_single rfl i q
theorem k2_rhs_0 (i : S1024x1.Idx) (q : dot_S1024x2048_S2048x1_S1024x1_1_0_0_1_n_n.contr.Idx) :
    (dot_S1024x2048_S2048x1_S1024x1_1_0_0_1_n_n.rhsIdx i q 0).val = (q ⟨0, by decide⟩).val :=
  dot_S1024x2048_S2048x1_S1024x1_1_0_0_1_n_n.rhsIdx_val_of_single rfl i q
theorem k2_rhs_1 (i : S1024x1.Idx) (q : dot_S1024x2048_S2048x1_S1024x1_1_0_0_1_n_n.contr.Idx) :
    (dot_S1024x2048_S2048x1_S1024x1_1_0_0_1_n_n.rhsIdx i q 1).val = (i 1).val := by
  unfold DotDims.rhsIdx
  rw [dif_neg (show ¬(1 : Fin S2048x1.rank) ∈ dot_S1024x2048_S2048x1_S1024x1_1_0_0_1_n_n.rhsBatch by decide),
    dif_pos (show (1 : Fin S2048x1.rank) ∈ dot_S1024x2048_S2048x1_S1024x1_1_0_0_1_n_n.rhsNonContracting by decide)]
  rfl

theorem k2_pay1_apply (p : Fin 1024) (q : Fin 1) : (k2_pay1 (F := Ideal)) (ix2 p q) = 0 := by
  unfold k2_pay1
  rw [shapeCast_self]
  exact Ideal.ofBits_zero_f32

/-- The body's update at an entry: the accumulator plus the sum over the tile's rows of the two blocks' products. -/
theorem k2_pay2_apply (x0 : Vec Ideal S2048x1024 .f32) (x1 : Vec Ideal S2048x1 .f32) (acc : Vec Ideal S1024x1 .f32)
    (p : Fin 1024) (q : Fin 1) :
    k2_pay2 x0 x1 acc (ix2 p q) = acc (ix2 p q) + ∑ i : Fin 2048, x0 (ix2 i p) * x1 (ix2 i q) := by
  unfold k2_pay2
  rw [shapeCast_self, shapeCast_self]
  rw [addf_apply]
  refine congrArg (acc (ix2 p q) + ·) ?_
  simp only [matmul]
  rw [Ideal.matmul_constant_zero_apply,
    ← Equiv.sum_comp (contrEquiv1 dot_S1024x2048_S2048x1_S1024x1_1_0_0_1_n_n 2048 rfl rfl).symm]
  refine Finset.sum_congr rfl fun k _ => ?_
  have hk := contrEquiv1_symm_val dot_S1024x2048_S2048x1_S1024x1_1_0_0_1_n_n 2048 rfl rfl k
  have el : @Eq EReal (transpose S1024x2048 [1, 0] (truncf (F := Ideal) FTy.bf16 x0 bitsLt_bf16_f32) transposes_S2048x1024_p1_0_S1024x2048
      (dot_S1024x2048_S2048x1_S1024x1_1_0_0_1_n_n.lhsIdx (ix2 p q)
        ((contrEquiv1 dot_S1024x2048_S2048x1_S1024x1_1_0_0_1_n_n 2048 rfl rfl).symm k))) (x0 (ix2 k p)) := by
    refine (transpose_apply [1, 0] _ transposes_S2048x1024_p1_0_S1024x2048 _ (ix2 k p) fun b => ?_).trans rfl
    match b with
    | ⟨0, _⟩ =>
      show p.val = (dot_S1024x2048_S2048x1_S1024x1_1_0_0_1_n_n.lhsIdx (ix2 p q) _ 0).val
      exact (k2_lhs_0 (ix2 p q) _).symm
    | ⟨1, _⟩ =>
      show k.val = (dot_S1024x2048_S2048x1_S1024x1_1_0_0_1_n_n.lhsIdx (ix2 p q) _ 1).val
      exact ((k2_lhs_1 (ix2 p q) _).trans hk).symm
  have er : dot_S1024x2048_S2048x1_S1024x1_1_0_0_1_n_n.rhsIdx (ix2 p q)
      ((contrEquiv1 dot_S1024x2048_S2048x1_S1024x1_1_0_0_1_n_n 2048 rfl rfl).symm k) = ix2 k q :=
    funext fun a => Fin.ext (by
      match a with
      | ⟨0, _⟩ => exact (k2_rhs_0 (ix2 p q) _).trans hk
      | ⟨1, _⟩ => exact k2_rhs_1 (ix2 p q) _)
  rw [el, er]
  rfl

theorem index_facts2 : ∀ t : Fin cfg2.N, win2_0.index t (0 : Fin 2) = t.val % 4 ∧ win2_0.index t (1 : Fin 2) = t.val / 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

abbrev harr2 (V : EntryVal Ideal) (c : Dev nD) : Vec Ideal S8192x4096 .f32 := V c main_arg3
abbrev varr2 (V : EntryVal Ideal) (c : Dev nD) : Vec Ideal S8192x1 .f32 := V c main_v31
abbrev hblk2 (V : EntryVal Ideal) (c : Dev nD) (t : Fin cfg2.N) : Vec Ideal S2048x1024 .f32 := iblk2 V c 0 t
abbrev vblk2 (V : EntryVal Ideal) (c : Dev nD) (t : Fin cfg2.N) : Vec Ideal S2048x1 .f32 := iblk2 V c 1 t

theorem hblk2_apply (V : EntryVal Ideal) (c : Dev nD) (t : Fin cfg2.N) (i : Fin 2048) (x : Fin 1024)
    (n : Fin 8192) (e : Fin 4096) (hn : n.val = 2048 * (t.val % 4) + i.val) (he : e.val = 1024 * (t.val / 4) + x.val) :
    hblk2 V c t (ix2 i x) = harr2 V c (ix2 n e) := by
  obtain ⟨h0, h1, -⟩ := index_facts2 t
  show iblk2 V c 0 t (ix2 i x) = _
  unfold iblk2
  rw [View.read_apply]
  show harr2 V c (((cfg2.win 0).blk t).view.emb (ix2 i x)) = _
  refine congrArg (harr2 V c) (funext fun a => Fin.ext ?_)
  match a with
  | ⟨0, _⟩ => show win2_0.index t (0 : Fin 2) * 2048 + 1 * i.val = n.val; rw [h0, hn]; omega
  | ⟨1, _⟩ => show win2_0.index t (1 : Fin 2) * 1024 + 1 * x.val = e.val; rw [h1, he]; omega

theorem vblk2_apply (V : EntryVal Ideal) (c : Dev nD) (t : Fin cfg2.N) (i : Fin 2048) (j : Fin 1)
    (n : Fin 8192) (hn : n.val = 2048 * (t.val % 4) + i.val) :
    vblk2 V c t (ix2 i j) = varr2 V c (ix2 n j) := by
  obtain ⟨-, -, h0, h1, -⟩ := index_facts2 t
  show iblk2 V c 1 t (ix2 i j) = _
  unfold iblk2
  rw [View.read_apply]
  show varr2 V c (((cfg2.win 1).blk t).view.emb (ix2 i j)) = _
  refine congrArg (varr2 V c) (funext fun a => Fin.ext ?_)
  match a with
  | ⟨0, _⟩ => show win2_1.index t (0 : Fin 2) * 2048 + 1 * i.val = n.val; rw [h0, hn]; omega
  | ⟨1, _⟩ => show win2_1.index t (1 : Fin 2) * S2048x1.size 1 + 1 * j.val = j.val; rw [h1]; omega

def pt2 (g k : Fin 4) : Fin cfg2.N :=
  ⟨4 * g.val + k.val, by rw [show cfg2.N = 16 from N_2]; have := g.isLt; have := k.isLt; omega⟩
theorem pt2_val (g k : Fin 4) : (pt2 g k).val = 4 * g.val + k.val := rfl
theorem pt2_mod (g k : Fin 4) : (pt2 g k).val % 4 = k.val := by rw [pt2_val]; have := k.isLt; omega
theorem pt2_div (g k : Fin 4) : (pt2 g k).val / 4 = g.val := by rw [pt2_val]; have := k.isLt; omega

abbrev prod2 (V : EntryVal Ideal) (c : Dev nD) (t : Fin cfg2.N) (p : Fin 1024) (q : Fin 1) : EReal :=
  ∑ i : Fin 2048, hblk2 V c t (ix2 i p) * vblk2 V c t (ix2 i q)

theorem accAt2_congr (V : EntryVal Ideal) (c : Dev nD) {n n' : ℕ} (e : n = n') (h : n < cfg2.N) (h' : n' < cfg2.N) :
    accAt2 V c n h = accAt2 V c n' h' := by subst e; rfl

theorem acc2_first (V : EntryVal Ideal) (c : Dev nD) (g : Fin 4) (p : Fin 1024) (q : Fin 1) :
    (accAt2 V c (pt2 g 0).val (pt2 g 0).isLt) (ix2 p q) = 0 + prod2 V c (pt2 g 0) p q := by
  rw [accAt2_reset V c (pt2 g 0) (pt2_mod g 0)]
  refine (k2_pay2_apply (hblk2 V c (pt2 g 0)) (vblk2 V c (pt2 g 0)) (k2_pay1 (F := Ideal)) p q).trans ?_
  rw [k2_pay1_apply]

theorem acc2_step (V : EntryVal Ideal) (c : Dev nD) (g k k' : Fin 4) (hk : k'.val = k.val + 1) (p : Fin 1024) (q : Fin 1)
    (S : EReal) (hS : (accAt2 V c (pt2 g k).val (pt2 g k).isLt) (ix2 p q) = S) :
    (accAt2 V c (pt2 g k').val (pt2 g k').isLt) (ix2 p q) = S + prod2 V c (pt2 g k') p q := by
  rw [accAt2_acc V c (pt2 g k') (by rw [pt2_mod, hk]; omega)]
  refine (k2_pay2_apply (hblk2 V c (pt2 g k')) (vblk2 V c (pt2 g k'))
    (accAt2 V c ((pt2 g k').val - 1) (Nat.lt_of_le_of_lt (Nat.sub_le _ _) (pt2 g k').isLt)) p q).trans ?_
  rw [accAt2_congr V c (show (pt2 g k').val - 1 = (pt2 g k).val by rw [pt2_val, pt2_val, hk]; omega) _ (pt2 g k).isLt, hS]

theorem acc2_last (V : EntryVal Ideal) (c : Dev nD) (g : Fin 4) (p : Fin 1024) (q : Fin 1) :
    (accAt2 V c (pt2 g 3).val (pt2 g 3).isLt) (ix2 p q)
      = (((0 + prod2 V c (pt2 g 0) p q) + prod2 V c (pt2 g 1) p q) + prod2 V c (pt2 g 2) p q) + prod2 V c (pt2 g 3) p q :=
  acc2_step V c g 2 3 rfl p q _ (acc2_step V c g 1 2 rfl p q _ (acc2_step V c g 0 1 rfl p q _ (acc2_first V c g p q)))

abbrev prodT2 (V : EntryVal Ideal) (c : Dev nD) : S4096x1.Idx → EReal := fun i =>
  ∑ n : Fin 8192, harr2 V c (ix2 n (i 0 : Fin 4096)) * varr2 V c (ix2 n (i 1 : Fin 1))

theorem oblk2_emb (t : Fin cfg2.N) (p : Fin 1024) (q : Fin 1) (e : Fin 4096) (he : e.val = 1024 * (t.val / 4) + p.val) :
    (((cfg2.win 2).blk t).view.emb (ix2 p q) : S4096x1.Idx) = ix2 e q := by
  obtain ⟨-, -, -, -, h0, h1⟩ := index_facts2 t
  refine funext fun a => Fin.ext ?_
  match a with
  | ⟨0, _⟩ => show win2_2.index t (0 : Fin 2) * 1024 + 1 * p.val = e.val; rw [h0, he]; omega
  | ⟨1, _⟩ => show win2_2.index t (1 : Fin 2) * S1024x1.size 1 + 1 * q.val = q.val; rw [h1]; omega

/-- What a run's last point writes back is its block of the whole product: the four tile sums are the four runs of the contraction. -/
theorem flushed2_eq (V : EntryVal Ideal) (c : Dev nD) (t : Fin cfg2.N) (hf : (cfg2.win 2).flush t = true) :
    (dat2 V c).flushed 2 t = ((cfg2.win 2).blk t).view.read (Elt Ideal) (prodT2 V c) := by
  have h3 : t.val % 4 = 3 := (flush2_2 t).mp hf
  have hN : cfg2.N = 16 := N_2
  obtain ⟨g, rfl⟩ : ∃ g : Fin 4, t = pt2 g 3 :=
    ⟨⟨t.val / 4, by have := t.isLt; omega⟩, Fin.ext (by show t.val = 4 * (t.val / 4) + 3; omega)⟩
  show (cfg2.win 2).cut (grid2.coords (pt2 g 3)) ((dat2 V c).after 2 (pt2 g 3)) = _
  rw [after2_2]
  refine funext fun (y : S1024x1.Idx) => ?_
  obtain ⟨p, q, rfl⟩ : ∃ (p : Fin 1024) (q : Fin 1), y = ix2 p q := ⟨y 0, y 1, eq_ix2 y⟩
  rw [View.read_apply]
  show (accAt2 V c (pt2 g 3).val (pt2 g 3).isLt) (ix2 p q) = prodT2 V c (((cfg2.win 2).blk (pt2 g 3)).view.emb (ix2 p q))
  have hg : g.val < 4 := g.isLt
  rw [acc2_last, oblk2_emb (pt2 g 3) p q ⟨1024 * g.val + p.val, by have := p.isLt; omega⟩ (by rw [pt2_div])]
  exact sum_four_runs (N := 8192) (B := 2048) rfl
    (fun n => harr2 V c (ix2 n (⟨1024 * g.val + p.val, by have := p.isLt; omega⟩ : Fin 4096)) * varr2 V c (ix2 n q))
    (fun k i => hblk2 V c (pt2 g k) (ix2 i p) * vblk2 V c (pt2 g k) (ix2 i q))
    (fun k i n hn => by
      rw [hblk2_apply V c (pt2 g k) i p n ⟨1024 * g.val + p.val, by have := p.isLt; omega⟩
          (by rw [pt2_mod]; omega) (by rw [pt2_div]),
        vblk2_apply V c (pt2 g k) i q n (by rw [pt2_mod]; omega)])

theorem covered2 (i : S4096x1.Idx) :
    ∃ t : Fin cfg2.N, (cfg2.win 2).flush t = true ∧ i ∈ ((cfg2.win 2).blk t).view.set := by
  have hi0 : (i 0).val < 4096 := idx2_lt0 i
  obtain ⟨g, hg⟩ : ∃ g : Fin 4, g.val = (i 0).val / 1024 := ⟨⟨(i 0).val / 1024, by omega⟩, rfl⟩
  refine ⟨pt2 g 3, (flush2_2 _).mpr (pt2_mod g 3), ?_⟩
  obtain ⟨-, -, -, -, h0, h1⟩ := index_facts2 (pt2 g 3)
  rw [pt2_div] at h0
  show i ∈ ((View.whole main_v32).slice (win2_2.rect (pt2 g 3))).set
  rw [View.set_slice_whole, Rect.mem_set_unit]
  intro a
  match a with
  | ⟨0, _⟩ =>
    show win2_2.index (pt2 g 3) (0 : Fin 2) * 1024 ≤ (i 0).val ∧ (i 0).val < win2_2.index (pt2 g 3) (0 : Fin 2) * 1024 + 1024
    rw [h0]; omega
  | ⟨1, _⟩ =>
    show win2_2.index (pt2 g 3) (1 : Fin 2) * S1024x1.size 1 ≤ (i 1).val
      ∧ (i 1).val < win2_2.index (pt2 g 3) (1 : Fin 2) * S1024x1.size 1 + S1024x1.size 1
    rw [h1, Nat.zero_mul, Nat.zero_add]
    exact ⟨Nat.zero_le _, (i 1).isLt⟩

/-- The result array after the region: the transposed product of the two matrices as the region found them. -/
theorem final2_fun (V : EntryVal Ideal) (c : Dev nD) : (dat2 V c).arrAt 2 cfg2.N = prodT2 V c :=
  (dat2 V c).arrAt_eq_of_cover 2 (prodT2 V c) (fun t hf => flushed2_eq V c t hf) covered2

theorem final2 (V : EntryVal Ideal) (c : Dev nD) (e : Fin 4096) (j : Fin 1) :
    ((dat2 V c).arrAt 2 cfg2.N : S4096x1.Idx → EReal) (ix2 e j) = ∑ n : Fin 8192, harr2 V c (ix2 n e) * varr2 V c (ix2 n j) :=
  congrFun (final2_fun V c) (ix2 e j)

end Cert.KernelIdeal.Hand

end
-- ==== Proof.KI.R3Val.lean ====
import proofs.«108704_j53352083751414_1_alg».proof.Proof.KI.R3Dat
import proofs.«108704_j53352083751414_1_alg».proof.Proof.KI.Blocks
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem lhs_k3_0 (i : S2048x1.Idx) (q : dot_S2048x1024_S1024x1_S2048x1_1_0_0_1_n_n.contr.Idx) :
    (dot_S2048x1024_S1024x1_S2048x1_1_0_0_1_n_n.lhsIdx i q 0).val = (i 0).val := by
  unfold DotDims.lhsIdx
  rw [dif_neg (show ¬(0 : Fin S2048x1024.rank) ∈ dot_S2048x1024_S1024x1_S2048x1_1_0_0_1_n_n.lhsBatch by decide),
    dif_pos (show (0 : Fin S2048x1024.rank) ∈ dot_S2048x1024_S1024x1_S2048x1_1_0_0_1_n_n.lhsNonContracting by decide)]
  rfl
theorem lhs_k3_1 (i : S2048x1.Idx) (q : dot_S2048x1024_S1024x1_S2048x1_1_0_0_1_n_n.contr.Idx) :
    (dot_S2048x1024_S1024x1_S2048x1_1_0_0_1_n_n.lhsIdx i q 1).val = (q ⟨0, by decide⟩).val :=
  dot_S2048x1024_S1024x1_S2048x1_1_0_0_1_n_n.lhsIdx_val_of_single rfl i q
theorem rhs_k3_0 (i : S2048x1.Idx) (q : dot_S2048x1024_S1024x1_S2048x1_1_0_0_1_n_n.contr.Idx) :
    (dot_S2048x1024_S1024x1_S2048x1_1_0_0_1_n_n.rhsIdx i q 0).val = (q ⟨0, by decide⟩).val :=
  dot_S2048x1024_S1024x1_S2048x1_1_0_0_1_n_n.rhsIdx_val_of_single rfl i q
theorem rhs_k3_1 (i : S2048x1.Idx) (q : dot_S2048x1024_S1024x1_S2048x1_1_0_0_1_n_n.contr.Idx) :
    (dot_S2048x1024_S1024x1_S2048x1_1_0_0_1_n_n.rhsIdx i q 1).val = (i 1).val := by
  unfold DotDims.rhsIdx
  rw [dif_neg (show ¬(1 : Fin S1024x1.rank) ∈ dot_S2048x1024_S1024x1_S2048x1_1_0_0_1_n_n.rhsBatch by decide),
    dif_pos (show (1 : Fin S1024x1.rank) ∈ dot_S2048x1024_S1024x1_S2048x1_1_0_0_1_n_n.rhsNonContracting by decide)]
  rfl

theorem matmul_k3_apply (A : FVec Ideal S2048x1024 .bf16) (B : FVec Ideal S1024x1 .bf16) (p : Fin 2048) (q : Fin 1) :
    matmul dot_S2048x1024_S1024x1_S2048x1_1_0_0_1_n_n none A B (constant (F := Ideal) S2048x1 .f32 0x00000000#32) (ix2 p q)
      = ∑ k : Fin 1024, A (ix2 p k) * B (ix2 k q) := by
  simp only [matmul]
  rw [Ideal.matmul_constant_zero_apply,
    ← Equiv.sum_comp (contrEquiv1 dot_S2048x1024_S1024x1_S2048x1_1_0_0_1_n_n 1024 rfl rfl).symm]
  refine Finset.sum_congr rfl fun k _ => ?_
  have hk := contrEquiv1_symm_val dot_S2048x1024_S1024x1_S2048x1_1_0_0_1_n_n 1024 rfl rfl k
  have el : dot_S2048x1024_S1024x1_S2048x1_1_0_0_1_n_n.lhsIdx (ix2 p q)
      ((contrEquiv1 dot_S2048x1024_S1024x1_S2048x1_1_0_0_1_n_n 1024 rfl rfl).symm k) = ix2 p k :=
    funext fun a => Fin.ext (by
      match a with
      | ⟨0, _⟩ => exact lhs_k3_0 _ _
      | ⟨1, _⟩ => exact (lhs_k3_1 _ _).trans hk)
  have er : dot_S2048x1024_S1024x1_S2048x1_1_0_0_1_n_n.rhsIdx (ix2 p q)
      ((contrEquiv1 dot_S2048x1024_S1024x1_S2048x1_1_0_0_1_n_n 1024 rfl rfl).symm k) = ix2 k q :=
    funext fun a => Fin.ext (by
      match a with
      | ⟨0, _⟩ => exact (rhs_k3_0 _ _).trans hk
      | ⟨1, _⟩ => exact rhs_k3_1 _ _)
  rw [el, er]

theorem broadcastTo_col_k3_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k3_pay1_apply (p : Fin 2048) (q : Fin 1) : k3_pay1 (F := Ideal) (ix2 p q) = 0 := by
  unfold k3_pay1
  simp only [shapeCast_self]
  exact Ideal.ofBits_zero_f32

/-- The body's update at an entry: the accumulator plus the sum over the tile's columns of the entry of `H`, scaled by its
    row's and its column's factors, times the entry of `M`. -/
theorem k3_pay2_apply (H : Vec Ideal S2048x1024 .f32) (dv : Vec Ideal S2048x1 .f32) (cl : Vec Ideal S1x1024 .f32)
    (M : Vec Ideal S1024x1 .f32) (acc : Vec Ideal S2048x1 .f32) (p : Fin 2048) (q : Fin 1) :
    k3_pay2 (F := Ideal) H dv cl M acc (ix2 p q)
      = acc (ix2 p q) + ∑ i : Fin 1024, ((H (ix2 p i) * dv (ix2 p (0 : Fin 1))) * cl (ix2 (0 : Fin 1) i)) * M (ix2 i q) := by
  unfold k3_pay2
  simp only [shapeCast_self]
  refine (addf_apply _ _ _).trans ?_
  refine congrArg (acc (ix2 p q) + ·) ?_
  refine (matmul_k3_apply _ _ p q).trans ?_
  refine Finset.sum_congr rfl fun i _ => ?_
  show (H (ix2 p i) * broadcastTo S2048x1024 dv broadcasts_S2048x1_S2048x1024 (ix2 p i))
      * broadcastTo S2048x1024 cl broadcasts_S1x1024_S2048x1024 (ix2 p i) * M (ix2 i q) = _
  rw [broadcastTo_col_k3_apply, broadcastTo_1b_ab_apply]

abbrev hblk3 (V : EntryVal Ideal) (c : Dev nD) (t : Fin cfg3.N) : Vec Ideal S2048x1024 .f32 := iblk3 V c 0 t
abbrev dblk3 (V : EntryVal Ideal) (c : Dev nD) (t : Fin cfg3.N) : Vec Ideal S2048x1 .f32 := iblk3 V c 1 t
abbrev cblk3 (V : EntryVal Ideal) (c : Dev nD) (t : Fin cfg3.N) : Vec Ideal S1x1024 .f32 := iblk3 V c 2 t
abbrev mblk3 (V : EntryVal Ideal) (c : Dev nD) (t : Fin cfg3.N) : Vec Ideal S1024x1 .f32 := iblk3 V c 3 t

abbrev harr3 (V : EntryVal Ideal) (c : Dev nD) : Vec Ideal S8192x4096 .f32 := V c main_arg3
abbrev darr3 (V : EntryVal Ideal) (c : Dev nD) : Vec Ideal S8192x1 .f32 := V c main_v0
abbrev carr3 (V : EntryVal Ideal) (c : Dev nD) : Vec Ideal S1x4096 .f32 := V c main_v2
abbrev marr3 (V : EntryVal Ideal) (c : Dev nD) : Vec Ideal S4096x1 .f32 := V c main_v32

theorem idx_facts3 : ∀ t : Fin cfg3.N,
    win3_0.index t (0 : Fin 2) = t.val / 4 ∧ win3_0.index t (1 : Fin 2) = t.val % 4
    ∧ win3_1.index t (0 : Fin 2) = t.val / 4 ∧ win3_1.index t (1 : Fin 2) = 0
    ∧ win3_2.index t (0 : Fin 2) = 0 ∧ win3_2.index t (1 : Fin 2) = t.val % 4
    ∧ win3_3.index t (0 : Fin 2) = t.val % 4 ∧ win3_3.index t (1 : Fin 2) = 0
    ∧ win3_4.index t (0 : Fin 2) = t.val / 4 ∧ win3_4.index t (1 : Fin 2) = 0 :=
  (by decide +kernel : ∀ t : Fin grid3.N, _)

theorem hblk3_apply (V : EntryVal Ideal) (c : Dev nD) (t : Fin cfg3.N) (p : Fin 2048) (i : Fin 1024) (n : Fin 8192) (e : Fin 4096)
    (hn : n.val = 2048 * (t.val / 4) + p.val) (he : e.val = 1024 * (t.val % 4) + i.val) :
    hblk3 V c t (ix2 p i) = harr3 V c (ix2 n e) := by
  obtain ⟨e0, e1, -⟩ := idx_facts3 t
  show V c main_arg3 (((cfg3.win 0).blk t).view.emb (ix2 p i)) = V c main_arg3 (ix2 n e)
  refine congrArg (V c main_arg3) (funext fun a => Fin.ext ?_)
  match a with
  | ⟨0, _⟩ => show win3_0.index t (0 : Fin 2) * 2048 + 1 * p.val = n.val; omega
  | ⟨1, _⟩ => show win3_0.index t (1 : Fin 2) * 1024 + 1 * i.val = e.val; omega

theorem dblk3_apply (V : EntryVal Ideal) (c : Dev nD) (t : Fin cfg3.N) (p : Fin 2048) (n : Fin 8192)
    (hn : n.val = 2048 * (t.val / 4) + p.val) :
    dblk3 V c t (ix2 p (0 : Fin 1)) = darr3 V c (ix2 n (0 : Fin 1)) := by
  obtain ⟨-, -, e0, e1, -⟩ := idx_facts3 t
  show V c main_v0 (((cfg3.win 1).blk t).view.emb (ix2 p (0 : Fin 1))) = V c main_v0 (ix2 n (0 : Fin 1))
  refine congrArg (V c main_v0) (funext fun a => Fin.ext ?_)
  match a with
  | ⟨0, _⟩ => show win3_1.index t (0 : Fin 2) * 2048 + 1 * p.val = n.val; omega
  | ⟨1, _⟩ => show win3_1.index t (1 : Fin 2) * 1 + 1 * 0 = 0; omega

theorem cblk3_apply (V : EntryVal Ideal) (c : Dev nD) (t : Fin cfg3.N) (i : Fin 1024) (e : Fin 4096)
    (he : e.val = 1024 * (t.val % 4) + i.val) :
    cblk3 V c t (ix2 (0 : Fin 1) i) = carr3 V c (ix2 (0 : Fin 1) e) := by
  obtain ⟨-, -, -, -, e0, e1, -⟩ := idx_facts3 t
  show V c main_v2 (((cfg3.win 2).blk t).view.emb (ix2 (0 : Fin 1) i)) = V c main_v2 (ix2 (0 : Fin 1) e)
  refine congrArg (V c main_v2) (funext fun a => Fin.ext ?_)
  match a with
  | ⟨0, _⟩ => show win3_2.index t (0 : Fin 2) * 1 + 1 * 0 = 0; omega
  | ⟨1, _⟩ => show win3_2.index t (1 : Fin 2) * 1024 + 1 * i.val = e.val; omega

theorem mblk3_apply (V : EntryVal Ideal) (c : Dev nD) (t : Fin cfg3.N) (i : Fin 1024) (q : Fin 1) (e : Fin 4096)
    (he : e.val = 1024 * (t.val % 4) + i.val) :
    mblk3 V c t (ix2 i q) = marr3 V c (ix2 e q) := by
  obtain ⟨-, -, -, -, -, -, e0, e1, -⟩ := idx_facts3 t
  show V c main_v32 (((cfg3.win 3).blk t).view.emb (ix2 i q)) = V c main_v32 (ix2 e q)
  refine congrArg (V c main_v32) (funext fun a => Fin.ext ?_)
  match a with
  | ⟨0, _⟩ => show win3_3.index t (0 : Fin 2) * 1024 + 1 * i.val = e.val; omega
  | ⟨1, _⟩ => show win3_3.index t (1 : Fin 2) * S1024x1.size (1 : Fin 2) + 1 * q.val = q.val; rw [e1]; omega

abbrev bprod3 (V : EntryVal Ideal) (c : Dev nD) (t : Fin cfg3.N) (p : Fin 2048) (q : Fin 1) : EReal :=
  ∑ i : Fin 1024, ((hblk3 V c t (ix2 p i) * dblk3 V c t (ix2 p (0 : Fin 1))) * cblk3 V c t (ix2 (0 : Fin 1) i)) * mblk3 V c t (ix2 i q)

theorem acc3_first (V : EntryVal Ideal) (c : Dev nD) (n : ℕ) (h : n < cfg3.N) (h0 : n % 4 = 0) (p : Fin 2048) (q : Fin 1) :
    accAt3 V c n h (ix2 p q) = 0 + bprod3 V c ⟨n, h⟩ p q := by
  rw [show accAt3 V c n h = _ from accAt3_reset V c ⟨n, h⟩ h0]
  refine (k3_pay2_apply (hblk3 V c ⟨n, h⟩) (dblk3 V c ⟨n, h⟩) (cblk3 V c ⟨n, h⟩) (mblk3 V c ⟨n, h⟩) (k3_pay1 (F := Ideal)) p q).trans ?_
  rw [k3_pay1_apply]

theorem acc3_step (V : EntryVal Ideal) (c : Dev nD) (n : ℕ) (h : n + 1 < cfg3.N) (h0 : ¬(n + 1) % 4 = 0) (p : Fin 2048) (q : Fin 1) :
    accAt3 V c (n + 1) h (ix2 p q) = accAt3 V c n (Nat.lt_of_succ_lt h) (ix2 p q) + bprod3 V c ⟨n + 1, h⟩ p q := by
  rw [show accAt3 V c (n + 1) h = _ from accAt3_acc V c ⟨n + 1, h⟩ h0]
  exact k3_pay2_apply (hblk3 V c ⟨n + 1, h⟩) (dblk3 V c ⟨n + 1, h⟩) (cblk3 V c ⟨n + 1, h⟩) (mblk3 V c ⟨n + 1, h⟩)
    (accAt3 V c n (Nat.lt_of_succ_lt h)) p q

theorem acc3_run (V : EntryVal Ideal) (c : Dev nD) (b : ℕ) (hb : b % 4 = 0) (h : b + 3 < cfg3.N) (p : Fin 2048) (q : Fin 1) :
    accAt3 V c (b + 3) h (ix2 p q)
      = (((0 + bprod3 V c ⟨b, by omega⟩ p q) + bprod3 V c ⟨b + 1, by omega⟩ p q) + bprod3 V c ⟨b + 2, by omega⟩ p q)
        + bprod3 V c ⟨b + 3, h⟩ p q := by
  have h0 : b < cfg3.N := by omega
  have h1 : b + 1 < cfg3.N := by omega
  have h2 : b + 2 < cfg3.N := by omega
  have e0 := acc3_first V c b h0 hb p q
  have e1 := acc3_step V c b h1 (by omega) p q
  have e2 := acc3_step V c (b + 1) h2 (by omega) p q
  have e3 := acc3_step V c (b + 2) h (by omega) p q
  exact e3.trans (congrArg (· + bprod3 V c ⟨b + 3, h⟩ p q) (e2.trans (congrArg (· + bprod3 V c ⟨b + 2, h2⟩ p q)
    (e1.trans (congrArg (· + bprod3 V c ⟨b + 1, h1⟩ p q) e0)))))

abbrev zterm3 (V : EntryVal Ideal) (c : Dev nD) (n : Fin 8192) (j : Fin 1) (e : Fin 4096) : EReal :=
  ((harr3 V c (ix2 n e) * darr3 V c (ix2 n (0 : Fin 1))) * carr3 V c (ix2 (0 : Fin 1) e)) * marr3 V c (ix2 e j)

abbrev Z3 (V : EntryVal Ideal) (c : Dev nD) : Vec Ideal S8192x1 .f32 := fun z =>
  ∑ e : Fin 4096, zterm3 V c ⟨(z 0).val, idx2_lt0 z⟩ ⟨(z 1).val, idx2_lt1 z⟩ e

/-- After the fourth point of a run the accumulator holds the whole contraction: the four tile sums are its four runs. -/
theorem accAt3_flush (V : EntryVal Ideal) (c : Dev nD) (t : Fin cfg3.N) (h3 : t.val % 4 = 3) (p : Fin 2048) (q : Fin 1)
    (n : Fin 8192) (hn : n.val = 2048 * (t.val / 4) + p.val) :
    accAt3 V c t.val t.isLt (ix2 p q) = ∑ e : Fin 4096, zterm3 V c n q e := by
  have hN : cfg3.N = 16 := N_3
  obtain ⟨tv, ht⟩ := t
  obtain ⟨b, rfl⟩ : ∃ b, tv = b + 3 := ⟨tv - 3, by have : tv % 4 = 3 := h3; omega⟩
  have h3' : (b + 3) % 4 = 3 := h3
  have hn' : n.val = 2048 * ((b + 3) / 4) + p.val := hn
  have hb4 : b % 4 = 0 := by omega
  refine (acc3_run V c b hb4 ht p q).trans ?_
  refine sum_four_runs (N := 4096) (B := 1024) rfl (zterm3 V c n q)
    (fun k i => ((hblk3 V c ⟨b + k.val, by have := k.isLt; omega⟩ (ix2 p i)
        * dblk3 V c ⟨b + k.val, by have := k.isLt; omega⟩ (ix2 p (0 : Fin 1)))
        * cblk3 V c ⟨b + k.val, by have := k.isLt; omega⟩ (ix2 (0 : Fin 1) i))
        * mblk3 V c ⟨b + k.val, by have := k.isLt; omega⟩ (ix2 i q)) ?_
  intro k i e he
  have hk := k.isLt
  have hg : n.val = 2048 * ((b + k.val) / 4) + p.val := by omega
  have hc : e.val = 1024 * ((b + k.val) % 4) + i.val := by omega
  show ((hblk3 V c ⟨b + k.val, _⟩ (ix2 p i) * dblk3 V c ⟨b + k.val, _⟩ (ix2 p (0 : Fin 1)))
      * cblk3 V c ⟨b + k.val, _⟩ (ix2 (0 : Fin 1) i)) * mblk3 V c ⟨b + k.val, _⟩ (ix2 i q) = zterm3 V c n q e
  rw [hblk3_apply V c ⟨b + k.val, _⟩ p i n e hg hc, dblk3_apply V c ⟨b + k.val, _⟩ p n hg,
    cblk3_apply V c ⟨b + k.val, _⟩ i e hc, mblk3_apply V c ⟨b + k.val, _⟩ i q e hc]

theorem accAt3_flush_idx (V : EntryVal Ideal) (c : Dev nD) (t : Fin cfg3.N) (h3 : t.val % 4 = 3) (y : S2048x1.Idx) (z : S8192x1.Idx)
    (h0 : (z 0).val = 2048 * (t.val / 4) + (y 0).val) (h1 : (z 1).val = (y 1).val) :
    accAt3 V c t.val t.isLt y = Z3 V c z := by
  obtain ⟨p, q, rfl⟩ : ∃ (p : Fin 2048) (q : Fin 1), y = ix2 p q := ⟨y 0, y 1, eq_ix2 y⟩
  have hq : (⟨(z 1).val, idx2_lt1 z⟩ : Fin 1) = q := Fin.ext h1
  show _ = ∑ e : Fin 4096, zterm3 V c ⟨(z 0).val, idx2_lt0 z⟩ ⟨(z 1).val, idx2_lt1 z⟩ e
  rw [hq]
  exact accAt3_flush V c t h3 p q ⟨(z 0).val, idx2_lt0 z⟩ h0

theorem flushed3_eq (V : EntryVal Ideal) (c : Dev nD) (t : Fin cfg3.N) (hf : (cfg3.win 4).flush t = true) :
    (dat3 V c).flushed 4 t = ((cfg3.win 4).blk t).view.read (Elt Ideal) (Z3 V c) := by
  have h3 : t.val % 4 = 3 := (flush3_4 t).mp hf
  obtain ⟨-, -, -, -, -, -, -, -, e0, e1⟩ := idx_facts3 t
  show (cfg3.win 4).cut (grid3.coords t) ((dat3 V c).after 4 t) = _
  rw [after3_4]
  funext y
  show accAt3 V c t.val t.isLt ((cfg3.win 4).xinj (grid3.coords t) y) = Z3 V c (((cfg3.win 4).blk t).view.emb y)
  refine accAt3_flush_idx V c t h3 _ _ ?_ ?_
  · show win3_4.index t (0 : Fin 2) * 2048 + 1 * (y 0).val = 2048 * (t.val / 4) + (y 0).val; omega
  · show win3_4.index t (1 : Fin 2) * S2048x1.size (1 : Fin 2) + 1 * (y 1).val = (y 1).val; rw [e1]; omega

theorem cover3 (i : S8192x1.Idx) : ∃ t : Fin cfg3.N, (cfg3.win 4).flush t = true ∧ i ∈ ((cfg3.win 4).blk t).view.set := by
  have hN : cfg3.N = 16 := N_3
  have hi0 : (i 0).val < 8192 := idx2_lt0 i
  have hi1 : (i 1).val < S2048x1.size (1 : Fin 2) := idx2_lt1 i
  obtain ⟨t, htv⟩ : ∃ t : Fin cfg3.N, t.val = 4 * ((i 0).val / 2048) + 3 := ⟨⟨4 * ((i 0).val / 2048) + 3, by omega⟩, rfl⟩
  obtain ⟨-, -, -, -, -, -, -, -, e0, e1⟩ := idx_facts3 t
  refine ⟨t, (flush3_4 t).mpr (by omega), ?_⟩
  show i ∈ ((View.whole main_v33).slice (win3_4.rect t)).set
  rw [View.set_slice_whole, Rect.mem_set_unit]
  intro a
  match a with
  | ⟨0, _⟩ =>
    show win3_4.index t (0 : Fin 2) * 2048 ≤ (i 0).val ∧ (i 0).val < win3_4.index t (0 : Fin 2) * 2048 + 2048
    omega
  | ⟨1, _⟩ =>
    show win3_4.index t (1 : Fin 2) * S2048x1.size (1 : Fin 2) ≤ (i 1).val
      ∧ (i 1).val < win3_4.index t (1 : Fin 2) * S2048x1.size (1 : Fin 2) + S2048x1.size (1 : Fin 2)
    rw [e1]; omega

/-- The result array after the region: the product of the scaled incidence matrix with `M` as the region found them. -/
theorem final3_arr (V : EntryVal Ideal) (c : Dev nD) : (dat3 V c).arrAt 4 cfg3.N = Z3 V c :=
  (dat3 V c).arrAt_eq_of_cover 4 (Z3 V c) (flushed3_eq V c) cover3

theorem final3 (V : EntryVal Ideal) (c : Dev nD) (n : Fin 8192) (j : Fin 1) :
    ((dat3 V c).arrAt 4 cfg3.N : Vec Ideal S8192x1 .f32) (ix2 n j)
      = ∑ e : Fin 4096, ((harr3 V c (ix2 n e) * darr3 V c (ix2 n (0 : Fin 1))) * carr3 V c (ix2 (0 : Fin 1) e)) * marr3 V c (ix2 e j) :=
  congrFun (final3_arr V c) (ix2 n j)

end Cert.KernelIdeal.Hand

end
-- ==== Proof.Ref.Read.lean ====
import proofs.«108704_j53352083751414_1_alg».proof.Proof.Ref.Stages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Cert.ReferenceIdeal
open Idealize.ShloMosaic Idealize.ShloMosaic.ValueIdx
open scoped BigOperators

variable [Facts]
open Facts₀ Facts

/-! A vector broadcast to a column or a row, and those to a matrix, read at an index. -/
section Broadcasts
variable {α : Type}

theorem bcast_vec_col_apply {a : ℕ} (x : (⟨1, ![a]⟩ : Shape).Idx → α)
    (h : (⟨1, ![a]⟩ : Shape).BroadcastsInDim ⟨2, ![a, 1]⟩ (![0] : Fin 1 → Fin 2)) (p : Fin a) :
    broadcastInDim ⟨2, ![a, 1]⟩ ![0] h x (ix2 p (0 : Fin 1)) = x (ix1 p) := by
  refine broadcastInDim_apply _ h x _ (ix1 p) fun ax => ?_
  match ax with
  | ⟨0, _⟩ =>
    show p.val = if a = 1 then 0 else p.val
    split
    · have := p.isLt; omega
    · rfl

theorem bcast_vec_row_apply {b : ℕ} (x : (⟨1, ![b]⟩ : Shape).Idx → α)
    (h : (⟨1, ![b]⟩ : Shape).BroadcastsInDim ⟨2, ![1, b]⟩ (![1] : Fin 1 → Fin 2)) (q : Fin b) :
    broadcastInDim ⟨2, ![1, b]⟩ ![1] h x (ix2 (0 : Fin 1) q) = x (ix1 q) := by
  refine broadcastInDim_apply _ h x _ (ix1 q) fun ax => ?_
  match ax with
  | ⟨0, _⟩ =>
    show q.val = if b = 1 then 0 else q.val
    split
    · have := q.isLt; omega
    · rfl

theorem bcast_col_mat_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ => rfl

theorem bcast_row_mat_apply {a b : ℕ} (x : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h x (ix2 p q) = x (ix2 (0 : Fin 1) q) := by
  refine broadcastInDim_apply _ h x _ (ix2 (0 : Fin 1) q) fun ax => ?_
  match ax with
  | ⟨0, _⟩ => rfl
  | ⟨1, _⟩ =>
    show q.val = if b = 1 then 0 else q.val
    split
    · have := q.isLt; omega
    · rfl

end Broadcasts

section Product
variable {a k b : ℕ} (w : DotDims.WF ⟨2, ![a, k]⟩ ⟨2, ![k, b]⟩ ⟨2, ![a, b]⟩ [1] [0] [0] [1] [] [])

abbrev rowsByCols : DotDims ⟨2, ![a, k]⟩ ⟨2, ![k, b]⟩ ⟨2, ![a, b]⟩ := ⟨[1], [0], [0], [1], [], [], w⟩

theorem lhs_row (j : (⟨2, ![a, b]⟩ : Shape).Idx) (c : (rowsByCols w).contr.Idx) :
    ((rowsByCols w).lhsIdx j c 0 : ℕ) = j 0 := by
  simp [DotDims.lhsIdx, rowsByCols]; rfl
theorem lhs_col (j : (⟨2, ![a, b]⟩ : Shape).Idx) (c : (rowsByCols w).contr.Idx) :
    ((rowsByCols w).lhsIdx j c 1 : ℕ) = c ⟨0, Nat.one_pos⟩ :=
  (rowsByCols w).lhsIdx_val_of_single (cl := 1) rfl j c
theorem rhs_row (j : (⟨2, ![a, b]⟩ : Shape).Idx) (c : (rowsByCols w).contr.Idx) :
    ((rowsByCols w).rhsIdx j c 0 : ℕ) = c ⟨0, Nat.one_pos⟩ :=
  (rowsByCols w).rhsIdx_val_of_single (cr := 0) rfl j c
theorem rhs_col (j : (⟨2, ![a, b]⟩ : Shape).Idx) (c : (rowsByCols w).contr.Idx) :
    ((rowsByCols w).rhsIdx j c 1 : ℕ) = j 1 := by
  simp [DotDims.rhsIdx, rowsByCols]; rfl

/-- A rows-by-columns product at an entry is the sum over the contracted axis. -/
theorem product_apply {φ₁ φ₂ : FTy} (A : FVec Ideal ⟨2, ![a, k]⟩ φ₁) (B : FVec Ideal ⟨2, ![k, b]⟩ φ₂) (p : Fin a) (q : Fin b) :
    Host.dotGeneral (rowsByCols w) none A B (ix2 p q) = ∑ c : Fin k, A (ix2 p c) * B (ix2 c q) := by
  show FloatOps.dotGeneral (rowsByCols w) none _ A B (ix2 p q) = _
  rw [Ideal.dotGeneral_apply, ← Equiv.sum_comp (contrEquiv1 (rowsByCols w) k rfl rfl).symm]
  refine Finset.sum_congr rfl fun c _ => ?_
  have hc : (((contrEquiv1 (rowsByCols w) k rfl rfl).symm c) ⟨0, Nat.one_pos⟩ : ℕ) = c.val :=
    contrEquiv1_symm_val (rowsByCols w) k rfl rfl c
  have hl : (rowsByCols w).lhsIdx (ix2 p q) ((contrEquiv1 (rowsByCols w) k rfl rfl).symm c) = ix2 p c := by
    funext ax; apply Fin.ext
    match ax with
    | ⟨0, _⟩ => exact lhs_row w _ _
    | ⟨1, _⟩ => exact (lhs_col w _ _).trans hc
  have hr : (rowsByCols w).rhsIdx (ix2 p q) ((contrEquiv1 (rowsByCols w) k rfl rfl).symm c) = ix2 c q := by
    funext ax; apply Fin.ext
    match ax with
    | ⟨0, _⟩ => exact (rhs_row w _ _).trans hc
    | ⟨1, _⟩ => exact rhs_col w _ _
  rw [hl, hr]

end Product

theorem stZ64_apply (A : Arr S8192x4096) (M : Arr S4096x64) (n : Fin 8192) (j : Fin 64) :
    stZ64 A M (ix2 n j) = ∑ e : Fin 4096, A (ix2 n e) * M (ix2 e j) :=
  product_apply dot_S8192x4096_S4096x64_S8192x64_1_0_0_1_n_n_wf A M n j

theorem stZ1_apply (A : Arr S8192x4096) (M : Arr S4096x1) (n : Fin 8192) (j : Fin 1) :
    stZ1 A M (ix2 n j) = ∑ e : Fin 4096, A (ix2 n e) * M (ix2 e j) :=
  product_apply dot_S8192x4096_S4096x1_S8192x1_1_0_0_1_n_n_wf A M n j

theorem stM64_apply (H : Arr S8192x4096) (V : Arr S8192x64) (e : Fin 4096) (j : Fin 64) :
    stM64 H V (ix2 e j) = ∑ n : Fin 8192, H (ix2 n e) * V (ix2 n j) := by
  refine (product_apply dot_S4096x8192_S8192x64_S4096x64_1_0_0_1_n_n_wf _ V e j).trans
    (Finset.sum_congr rfl fun n _ => ?_)
  rw [transpose_ix2_apply]

theorem stM1_apply (H : Arr S8192x4096) (V : Arr S8192x1) (e : Fin 4096) (j : Fin 1) :
    stM1 H V (ix2 e j) = ∑ n : Fin 8192, H (ix2 n e) * V (ix2 n j) := by
  refine (product_apply dot_S4096x8192_S8192x1_S4096x1_1_0_0_1_n_n_wf _ V e j).trans
    (Finset.sum_congr rfl fun n _ => ?_)
  rw [transpose_ix2_apply]

theorem stBdv_apply (dv : Arr S8192) (n : Fin 8192) : stBdv dv (ix2 n (0 : Fin 1)) = dv (ix1 n) :=
  bcast_vec_col_apply dv _ n

theorem stCol_apply (W De : Arr S4096) (e : Fin 4096) :
    stCol W De (ix2 (0 : Fin 1) e) = W (ix1 e) * De (ix1 e) :=
  bcast_vec_row_apply (mulf W De) _ e

theorem stA_apply (dv : Arr S8192) (H : Arr S8192x4096) (W De : Arr S4096)
    (n : Fin 8192) (e : Fin 4096) :
    stA dv H W De (ix2 n e) = (dv (ix1 n) * H (ix2 n e)) * (W (ix1 e) * De (ix1 e)) := by
  unfold stA
  rw [mulf_apply, mulf_apply, bcast_col_mat_apply, bcast_row_mat_apply, stBdv_apply, stCol_apply]

end Cert.ReferenceIdeal.Hand

end
-- ==== Proof.Bridge.lean ====
import proofs.«108704_j53352083751414_1_alg».proof.Proof.KI.Frame
import proofs.«108704_j53352083751414_1_alg».proof.Proof.KI.HostVal
import proofs.«108704_j53352083751414_1_alg».proof.Proof.KI.R0Val
import proofs.«108704_j53352083751414_1_alg».proof.Proof.KI.R1Val
import proofs.«108704_j53352083751414_1_alg».proof.Proof.KI.R2Val
import proofs.«108704_j53352083751414_1_alg».proof.Proof.KI.R3Val
import proofs.«108704_j53352083751414_1_alg».proof.Proof.Ref.Read

set_option maxRecDepth 16384

noncomputable section

namespace Cert.Proof.Bridge

open Idealize.ShloMosaic Idealize.ShloMosaic.ValueIdx
open Cert.ReferenceIdeal.Hand
open scoped BigOperators

section Propagate
variable [Cert.ReferenceIdeal.Facts]
open Cert.ReferenceIdeal (S8192 S4096 S8192x4096 S8192x64 S4096x64 S8192x1 S4096x1 S1x4096)

/-- A propagation from its two products: with `M` the whole contraction `Hᵀ · v` and `Z` the whole contraction of the
    scaled rows of `H` with `M`, `Z` is the reference's `A · (Hᵀ · v)`: the kernel multiplies `H (n, e)` by `d n`, the reference `d n` by `H (n, e)`. -/
theorem propagate64 (dv : Arr S8192) (H : Arr S8192x4096) (W De : Arr S4096) (v : Arr S8192x64)
    (H₀ H₁ : Arr S8192x4096) (bd : Arr S8192x1) (cl : Arr S1x4096) (v₀ : Arr S8192x64) (Mk M₁ : Arr S4096x64)
    (Zk : Arr S8192x64)
    (eH₀ : H₀ = H) (eH₁ : H₁ = H) (ebd : bd = stBdv dv) (ecl : cl = stCol W De) (ev : v₀ = v) (eM : M₁ = Mk)
    (hM : ∀ (e : Fin 4096) (j : Fin 64), Mk (ix2 e j) = ∑ n : Fin 8192, H₀ (ix2 n e) * v₀ (ix2 n j))
    (hZ : ∀ (n : Fin 8192) (j : Fin 64), Zk (ix2 n j)
      = ∑ e : Fin 4096, ((H₁ (ix2 n e) * bd (ix2 n (0 : Fin 1))) * cl (ix2 (0 : Fin 1) e)) * M₁ (ix2 e j)) :
    Zk = stZ64 (stA dv H W De) (stM64 H v) := by
  subst eH₀ eH₁ ebd ecl ev eM
  funext i
  obtain ⟨n, j, rfl⟩ : ∃ (n : Fin 8192) (j : Fin 64), i = ix2 n j := ⟨i 0, i 1, eq_ix2 i⟩
  rw [hZ, stZ64_apply]
  refine Finset.sum_congr rfl fun e _ => ?_
  rw [stA_apply, stM64_apply, hM, stBdv_apply, stCol_apply, mul_comm (dv (ix1 n))]

theorem propagate1 (dv : Arr S8192) (H : Arr S8192x4096) (W De : Arr S4096) (v : Arr S8192x1)
    (H₀ H₁ : Arr S8192x4096) (bd : Arr S8192x1) (cl : Arr S1x4096) (v₀ : Arr S8192x1) (Mk M₁ : Arr S4096x1)
    (Zk : Arr S8192x1)
    (eH₀ : H₀ = H) (eH₁ : H₁ = H) (ebd : bd = stBdv dv) (ecl : cl = stCol W De) (ev : v₀ = v) (eM : M₁ = Mk)
    (hM : ∀ (e : Fin 4096) (j : Fin 1), Mk (ix2 e j) = ∑ n : Fin 8192, H₀ (ix2 n e) * v₀ (ix2 n j))
    (hZ : ∀ (n : Fin 8192) (j : Fin 1), Zk (ix2 n j)
      = ∑ e : Fin 4096, ((H₁ (ix2 n e) * bd (ix2 n (0 : Fin 1))) * cl (ix2 (0 : Fin 1) e)) * M₁ (ix2 e j)) :
    Zk = stZ1 (stA dv H W De) (stM1 H v) := by
  subst eH₀ eH₁ ebd ecl ev eM
  funext i
  obtain ⟨n, j, rfl⟩ : ∃ (n : Fin 8192) (j : Fin 1), i = ix2 n j := ⟨i 0, i 1, eq_ix2 i⟩
  rw [hZ, stZ1_apply]
  refine Finset.sum_congr rfl fun e _ => ?_
  rw [stA_apply, stM1_apply, hM, stBdv_apply, stCol_apply, mul_comm (dv (ix1 n))]

end Propagate

section Program
open Cert.KernelIdeal Cert.KernelIdeal.Gen Cert.KernelIdeal.Hand
open Idealize.ShloMosaic.TcCoe

variable (m : (ℓ : Loc nD τ sig) → Buf (Elt Ideal) ℓ) (c : Dev nD)

theorem first_propagation :
    outsK m 3 main_v8 c
      = stZ64 (stA (m ((c : Thread nD τ).loc main_arg1)) (m ((c : Thread nD τ).loc main_arg3)) (m ((c : Thread nD τ).loc main_arg4)) (m ((c : Thread nD τ).loc main_arg2)))
          (stM64 (m ((c : Thread nD τ).loc main_arg3)) (stV64 (m ((c : Thread nD τ).loc main_arg1)) (stXt (m ((c : Thread nD τ).loc main_arg0)) (m ((c : Thread nD τ).loc main_arg5))))) :=
  propagate64 _ _ _ _ _
    (V1 m c main_arg3) (V2 m (outsK m) c main_arg3) (V2 m (outsK m) c main_v0) (V2 m (outsK m) c main_v2)
    (V1 m c main_v6) (outsK m 2 main_v7 c) (V2 m (outsK m) c main_v7) (outsK m 3 main_v8 c)
    (V1_main_arg3 m c) (V2_main_arg3 m (outsK m) c)
    ((V2_main_v0 m (outsK m) c).trans (hv0 m c)) ((V2_main_v2 m (outsK m) c).trans (hv2 m c))
    (hv6 m c) (V2_main_v7 m (outsK m) c)
    (fun e j => (congrFun (ok0 m c) (ix2 e j)).trans (final0 (EV0 m) c e j))
    (fun n j => (congrFun (ok1 m c) (ix2 n j)).trans (final1 (EV1 m (outsK m)) c n j))

theorem second_propagation :
    outsK m 10 main_v33 c
      = stZ1 (stA (m ((c : Thread nD τ).loc main_arg1)) (m ((c : Thread nD τ).loc main_arg3)) (m ((c : Thread nD τ).loc main_arg4)) (m ((c : Thread nD τ).loc main_arg2)))
          (stM1 (m ((c : Thread nD τ).loc main_arg3)) (stMid (outsK m 3 main_v8 c) (m ((c : Thread nD τ).loc main_arg1)) (m ((c : Thread nD τ).loc main_arg7)) (m ((c : Thread nD τ).loc main_arg8)) (m ((c : Thread nD τ).loc main_arg6)))) :=
  propagate1 _ _ _ _ _
    (V8 m (outsK m) c main_arg3) (V9 m (outsK m) c main_arg3) (V9 m (outsK m) c main_v0) (V9 m (outsK m) c main_v2)
    (V8 m (outsK m) c main_v31) (outsK m 9 main_v32 c) (V9 m (outsK m) c main_v32) (outsK m 10 main_v33 c)
    (V8_main_arg3 m (outsK m) c) (V9_main_arg3 m (outsK m) c)
    ((V9_main_v0 m (outsK m) c).trans (hv0 m c)) ((V9_main_v2 m (outsK m) c).trans (hv2 m c))
    (hv31 m (outsK m) c) (V9_main_v32 m (outsK m) c)
    (fun e j => (congrFun (ok2 m c) (ix2 e j)).trans (final2 (EV2 m (outsK m)) c e j))
    (fun n j => (congrFun (ok3 m c) (ix2 n j)).trans (final3 (EV3 m (outsK m)) c n j))

/-- The kernel program's result is the reference's composed stages of the arguments. -/
theorem kval_eq :
    V11 m (outsK m) c main_v40
      = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (hv40 m (outsK m) c).trans (congrArg stTail ?_)
  refine (second_propagation m c).trans ?_
  rw [first_propagation m c]

end Program

end Cert.Proof.Bridge

end
-- ==== Proof.lean ====
import proofs.«108704_j53352083751414_1_alg».proof.Defs
import proofs.«108704_j53352083751414_1_alg».proof.Proof.Gen.Kernel
import proofs.«108704_j53352083751414_1_alg».proof.Proof.Gen.KernelIdeal
import proofs.«108704_j53352083751414_1_alg».proof.Proof.Gen.ReferenceIdeal
import proofs.«108704_j53352083751414_1_alg».proof.Proof.Gen.Pre_finite_inputs
import proofs.«108704_j53352083751414_1_alg».proof.Proof.K.Frame
import proofs.«108704_j53352083751414_1_alg».proof.Proof.KI.Frame
import proofs.«108704_j53352083751414_1_alg».proof.Proof.Ref.Run
import proofs.«108704_j53352083751414_1_alg».proof.Proof.Bridge
import Idealize.ShloMosaic.Adequacy
import Idealize.ShloMosaic.Init

noncomputable section

namespace Cert.Proof

open Idealize.ShloMosaic Idealize.SL.Sem

/-- Each kernel program's frame is its run, named at the result and the arguments, with the result dropped. -/
theorem frame_k : Cert.frame_Kernel := fun m ρ _ =>
  (θ_run Cert.Kernel.defs _ _).mono (fun _ h c => (h c).2) (Cert.Kernel.Hand.run_val (F := Bits) m ρ)

theorem frame_ki : Cert.frame_KernelIdeal := fun m ρ _ =>
  (θ_run Cert.KernelIdeal.defs _ _).mono (fun _ h c => (h c).2) (Cert.KernelIdeal.Hand.run_val (F := Ideal) m ρ)

theorem frame_ri : Cert.frame_ReferenceIdeal := fun m ρ _ => Cert.ReferenceIdeal.Hand.frame m ρ

/-- From memories agreeing on the nine arguments both idealized programs end with the result at one function of them: the
    kernel program's last valuation is that function (the bridge), and the reference's run names it directly. -/
theorem algebraic : Cert.algebraic_KernelIdeal_ReferenceIdeal := by
  intro m ρ m' ρ' _ hagree
  refine ⟨fun c => Cert.ReferenceIdeal.Hand.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.Proof.Bridge.kval_eq m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
